-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x2048x2048 : Shape := ⟨3, ![8, 2048, 2048]⟩
abbrev S2x256x256 : Shape := ⟨3, ![2, 256, 256]⟩
abbrev S2x256 : Shape := ⟨2, ![2, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_

variable [Facts]

def fn_part1 {F : FTy → Type} [FloatOps F] (main_arg4 : FVec F S2x256x256 .f32) (main_arg5 : FVec F S2x256 .f32) (main_v13 : IVec S_ 1) (main_v16 : IVec S2x256 1) : IVec S_ 1 :=
  let main_c_5 : IVec S_ 1 := constantI S_ 1 1#1
  let main_v17 : IVec S_ 1 := (fun x v => Host.reduce IntOp.andi x v reducesTo_S2x256_S_d0_1 h_S_) main_v16 main_c_5
  let main_v18 : IVec S_ 1 := andi main_v13 main_v17
  let main_v19 : FVec F S2x256x256 .f32 := Host.absf main_arg4
  let main_cst_6 : FVec F S_ .f32 := constant S_ .f32 0x7F800000#32
  let main_v20 : FVec F S2x256x256 .f32 := broadcastInDim S2x256x256 ![] bcast_S_S2x256x256 main_cst_6
  let main_v21 : IVec S2x256x256 1 := cmpf .olt main_v19 main_v20
  let main_c_7 : IVec S_ 1 := constantI S_ 1 1#1
  let main_v22 : IVec S_ 1 := (fun x v => Host.reduce IntOp.andi x v reducesTo_S2x256x256_S_d0_1_2 h_S_) main_v21 main_c_7
  let main_v23 : IVec S_ 1 := andi main_v18 main_v22
  let main_v24 : FVec F S2x256 .f32 := Host.absf main_arg5
  let main_cst_8 : FVec F S_ .f32 := constant S_ .f32 0x7F800000#32
  let main_v25 : FVec F S2x256 .f32 := broadcastInDim S2x256 ![] bcast_S_S2x256 main_cst_8
  let main_v26 : IVec S2x256 1 := cmpf .olt main_v24 main_v25
  let main_c_9 : IVec S_ 1 := constantI S_ 1 1#1
  let main_v27 : IVec S_ 1 := (fun x v => Host.reduce IntOp.andi x v reducesTo_S2x256_S_d0_1 h_S_) main_v26 main_c_9
  let main_v28 : IVec S_ 1 := andi main_v23 main_v27
  main_v28

def fn {F : FTy → Type} [FloatOps F] (main_arg0 : FVec F S8x2048x256 .f32) (main_arg1 : FVec F S8x2048x2048 .f32) (main_arg2 : FVec F S2x256x256 .f32) (main_arg3 : FVec F S2x256 .f32) (main_arg4 : FVec F S2x256x256 .f32) (main_arg5 : FVec F S2x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S2x256x256 .f32 := Host.absf main_arg2
  let main_cst_2 : FVec F S_ .f32 := constant S_ .f32 0x7F800000#32
  let main_v10 : FVec F S2x256x256 .f32 := broadcastInDim S2x256x256 ![] bcast_S_S2x256x256 main_cst_2
  let main_v11 : IVec S2x256x256 1 := cmpf .olt main_v9 main_v10
  let main_c_3 : IVec S_ 1 := constantI S_ 1 1#1
  let main_v12 : IVec S_ 1 := (fun x v => Host.reduce IntOp.andi x v reducesTo_S2x256x256_S_d0_1_2 h_S_) main_v11 main_c_3
  let main_v13 : IVec S_ 1 := andi main_v8 main_v12
  let main_v14 : FVec F S2x256 .f32 := Host.absf main_arg3
  let main_cst_4 : FVec F S_ .f32 := constant S_ .f32 0x7F800000#32
  let main_v15 : FVec F S2x256 .f32 := broadcastInDim S2x256 ![] bcast_S_S2x256 main_cst_4
  let main_v16 : IVec S2x256 1 := cmpf .olt main_v14 main_v15
  fn_part1 (F := F) main_arg4 main_arg5 main_v13 main_v16
-- ==== Kernel.lean ====
abbrev S8x2048x256 : Shape := ⟨3, ![8, 2048, 256]⟩
abbrev S8x2048x2048 : Shape := ⟨3, ![8, 2048, 2048]⟩
abbrev S2x256x256 : Shape := ⟨3, ![2, 256, 256]⟩
abbrev S2x256 : Shape := ⟨2, ![2, 256]⟩
abbrev S2x1x256 : Shape := ⟨3, ![2, 1, 256]⟩
abbrev S1x256x256 : Shape := ⟨3, ![1, 256, 256]⟩
abbrev S256x256 : Shape := ⟨2, ![256, 256]⟩
abbrev S1x1x256 : Shape := ⟨3, ![1, 1, 256]⟩
abbrev S1x256 : Shape := ⟨2, ![1, 256]⟩
abbrev S1x512x256 : Shape := ⟨3, ![1, 512, 256]⟩
abbrev S1x2048x256 : Shape := ⟨3, ![1, 2048, 256]⟩
abbrev S1x2048x512 : Shape := ⟨3, ![1, 2048, 512]⟩
abbrev S2048x256 : Shape := ⟨2, ![2048, 256]⟩
abbrev S2048x1 : Shape := ⟨2, ![2048, 1]⟩
abbrev S2048x512 : Shape := ⟨2, ![2048, 512]⟩
abbrev S512x256 : Shape := ⟨2, ![512, 256]⟩
abbrev S2048 : Shape := ⟨1, ![2048]⟩

abbrev nBuf : Space → Nat
  | .hbm => 29
  | .vmem => 30
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S2x256x256, .f32⟩
  | .hbm, ⟨3, _⟩ => ⟨S2x256, .f32⟩
  | .hbm, ⟨4, _⟩ => ⟨S2x256x256, .f32⟩
  | .hbm, ⟨5, _⟩ => ⟨S2x256, .f32⟩
  | .hbm, ⟨6, _⟩ => ⟨S2x256x256, .f32⟩
  | .hbm, ⟨7, _⟩ => ⟨S2x256x256, .f32⟩
  | .hbm, ⟨8, _⟩ => ⟨S2x1x256, .f32⟩
  | .hbm, ⟨9, _⟩ => ⟨S2x1x256, .f32⟩
  | .hbm, ⟨10, _⟩ => ⟨S1x256x256, .f32⟩
  | .hbm, ⟨11, _⟩ => ⟨S256x256, .f32⟩
  | .hbm, ⟨12, _⟩ => ⟨S1x1x256, .f32⟩
  | .hbm, ⟨13, _⟩ => ⟨S1x256, .f32⟩
  | .hbm, ⟨14, _⟩ => ⟨S1x256x256, .f32⟩
  | .hbm, ⟨15, _⟩ => ⟨S256x256, .f32⟩
  | .hbm, ⟨16, _⟩ => ⟨S1x1x256, .f32⟩
  | .hbm, ⟨17, _⟩ => ⟨S1x256, .f32⟩
  | .hbm, ⟨18, _⟩ => ⟨S8x2048x256, .f32⟩
  | .hbm, ⟨19, _⟩ => ⟨S1x256x256, .f32⟩
  | .hbm, ⟨20, _⟩ => ⟨S256x256, .f32⟩
  | .hbm, ⟨21, _⟩ => ⟨S1x1x256, .f32⟩
  | .hbm, ⟨22, _⟩ => ⟨S1x256, .f32⟩
  | .hbm, ⟨23, _⟩ => ⟨S1x256x256, .f32⟩
  | .hbm, ⟨24, _⟩ => ⟨S256x256, .f32⟩
  | .hbm, ⟨25, _⟩ => ⟨S1x1x256, .f32⟩
  | .hbm, ⟨26, _⟩ => ⟨S1x256, .f32⟩
  | .hbm, ⟨27, _⟩ => ⟨S8x2048x256, .f32⟩
  | .hbm, ⟨28, _⟩ => ⟨S8x2048x256, .f32⟩
  | .local _ .vmem, ⟨0, _⟩ => ⟨S1x512x256, .f32⟩
  | .local _ .vmem, ⟨1, _⟩ => ⟨S1x512x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x512, .f32⟩
  | .local _ .vmem, ⟨5, _⟩ => ⟨S1x2048x512, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S1x2048x256, .f32⟩
  | .local _ .vmem, ⟨11, _⟩ => ⟨S1x2048x256, .f32⟩
  | .local _ .vmem, ⟨12, _⟩ => ⟨S2048x256, .f32⟩
  | .local _ .vmem, ⟨13, _⟩ => ⟨S2048x256, .f32⟩
  | .local _ .vmem, ⟨14, _⟩ => ⟨S2048x1, .f32⟩
  | .local _ .vmem, ⟨15, _⟩ => ⟨S1x512x256, .f32⟩
  | .local _ .vmem, ⟨16, _⟩ => ⟨S1x512x256, .f32⟩
  | .local _ .vmem, ⟨17, _⟩ => ⟨S1x2048x256, .f32⟩
  | .local _ .vmem, ⟨18, _⟩ => ⟨S1x2048x256, .f32⟩
  | .local _ .vmem, ⟨19, _⟩ => ⟨S1x2048x512, .f32⟩
  | .local _ .vmem, ⟨20, _⟩ => ⟨S1x2048x512, .f32⟩
  | .local _ .vmem, ⟨21, _⟩ => ⟨S256x256, .f32⟩
  | .local _ .vmem, ⟨22, _⟩ => ⟨S1x256, .f32⟩
  | .local _ .vmem, ⟨23, _⟩ => ⟨S256x256, .f32⟩
  | .local _ .vmem, ⟨24, _⟩ => ⟨S1x256, .f32⟩
  | .local _ .vmem, ⟨25, _⟩ => ⟨S1x2048x256, .f32⟩
  | .local _ .vmem, ⟨26, _⟩ => ⟨S1x2048x256, .f32⟩
  | .local _ .vmem, ⟨27, _⟩ => ⟨S2048x256, .f32⟩
  | .local _ .vmem, ⟨28, _⟩ => ⟨S2048x256, .f32⟩
  | .local _ .vmem, ⟨29, _⟩ => ⟨S2048x1, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_20 : BitVec 32 := 0#32
  let v33 : BitVec 1 := Scalar.cmpi .ne v32 c0_i32_20
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_20 : BitVec 32 := 0#32
  let v33 : BitVec 1 := Scalar.cmpi .ne v32 c0_i32_20
  v33

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  transposes_S2x256x256_S2x256x256_0_2_1 : S2x256x256.Transposes [0, 2, 1] S2x256x256
  shapeCasts_S2x256_S2x1x256 : S2x256.ShapeCasts S2x1x256
  slices_S2x256x256_S1x256x256_0_0_0 : S2x256x256.Slices ![0, 0, 0] S1x256x256
  shapeCasts_S1x256x256_S256x256 : S1x256x256.ShapeCasts S256x256
  slices_S2x1x256_S1x1x256_0_0_0 : S2x1x256.Slices ![0, 0, 0] S1x1x256
  shapeCasts_S1x1x256_S1x256 : S1x1x256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  broadcasts_S1x256_S512x256 : S1x256.Broadcasts S512x256
  reduces_S2048x512_S2048 : S2048x512.Reduces [1] S2048
  shapeCasts_S2048_S2048x1 : S2048.ShapeCasts S2048x1
  broadcasts_S2048x1_S2048x256 : S2048x1.Broadcasts S2048x256
  shapeCasts_S2048x256_S1x2048x256 : S2048x256.ShapeCasts S1x2048x256
  slices_S2x256x256_S1x256x256_1_0_0 : S2x256x256.Slices ![1, 0, 0] S1x256x256
  slices_S2x1x256_S1x1x256_1_0_0 : S2x1x256.Slices ![1, 0, 0] S1x1x256
  dot_S2048x256_S256x256_S2048x256_1_0_0_1_n_n_wf : DotDims.WF S2048x256 S256x256 S2048x256 [1] [0] [0] [1] [] []
  dot_S512x256_S256x256_S512x256_1_0_0_1_n_n_wf : DotDims.WF S512x256 S256x256 S512x256 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x2048x256.size a
  hwx0_0 : ∀ i : grid0.Coords, EltTy.bits .f32 = 32 ∨ (Rect.block (s := S8x2048x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x256.size a
  hwx0_1 : ∀ i : grid0.Coords, EltTy.bits .f32 = 32 ∨ (Rect.block (s := S8x2048x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x2048.size a
  hwx0_2 : ∀ i : grid0.Coords, EltTy.bits .f32 = 32 ∨ (Rect.block (s := S8x2048x2048) S1x2048x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x256.size a ≤ S8x2048x256.size a
  hwx0_7 : ∀ i : grid0.Coords, EltTy.bits .f32 = 32 ∨ (Rect.block (s := S8x2048x256) S1x2048x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S8x2048x256.size a
  hwx1_0 : ∀ i : grid1.Coords, EltTy.bits .f32 = 32 ∨ (Rect.block (s := S8x2048x256) S1x512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x256.size a ≤ S8x2048x256.size a
  hwx1_1 : ∀ i : grid1.Coords, EltTy.bits .f32 = 32 ∨ (Rect.block (s := S8x2048x256) S1x2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x512.size a ≤ S8x2048x2048.size a
  hwx1_2 : ∀ i : grid1.Coords, EltTy.bits .f32 = 32 ∨ (Rect.block (s := S8x2048x2048) S1x2048x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x2048x256.size a ≤ S8x2048x256.size a
  hwx1_7 : ∀ i : grid1.Coords, EltTy.bits .f32 = 32 ∨ (Rect.block (s := S8x2048x256) S1x2048x256.size (cc1_transform_7 i) (hinb1_7 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v12) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x2048x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S1x2048x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S2x256x256 : Shape := ⟨3, ![2, 256, 256]⟩
abbrev S2x256 : Shape := ⟨2, ![2, 256]⟩
abbrev S_ : Shape := ⟨0, ![]⟩
abbrev S8x2048 : Shape := ⟨2, ![8, 2048]⟩
abbrev S8x2048x1 : Shape := ⟨3, ![8, 2048, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x1x256 : Shape := ⟨3, ![1, 1, 256]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S2x256x256, .f32⟩
  | .hbm, ⟨3, _⟩ => ⟨S2x256, .f32⟩
  | .hbm, ⟨4, _⟩ => ⟨S2x256x256, .f32⟩
  | .hbm, ⟨5, _⟩ => ⟨S2x256, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S1x256x256, .f32⟩
  | .hbm, ⟨13, _⟩ => ⟨S256x256, .f32⟩
  | .hbm, ⟨14, _⟩ => ⟨S8x2048x256, .f32⟩
  | .hbm, ⟨15, _⟩ => ⟨S1x256, .f32⟩
  | .hbm, ⟨16, _⟩ => ⟨S256, .f32⟩
  | .hbm, ⟨17, _⟩ => ⟨S1x1x256, .f32⟩
  | .hbm, ⟨18, _⟩ => ⟨S8x2048x256, .f32⟩
  | .hbm, ⟨19, _⟩ => ⟨S8x2048x256, .f32⟩
  | .hbm, ⟨20, _⟩ => ⟨S8x2048x256, .f32⟩
  | .hbm, ⟨21, _⟩ => ⟨S1x256x256, .f32⟩
  | .hbm, ⟨22, _⟩ => ⟨S256x256, .f32⟩
  | .hbm, ⟨23, _⟩ => ⟨S8x2048x256, .f32⟩
  | .hbm, ⟨24, _⟩ => ⟨S1x256, .f32⟩
  | .hbm, ⟨25, _⟩ => ⟨S256, .f32⟩
  | .hbm, ⟨26, _⟩ => ⟨S1x1x256, .f32⟩
  | .hbm, ⟨27, _⟩ => ⟨S8x2048x256, .f32⟩
  | .hbm, ⟨28, _⟩ => ⟨S8x2048x256, .f32⟩
  | .hbm, ⟨29, _⟩ => ⟨S8x2048x256, .f32⟩
  | .hbm, ⟨30, _⟩ => ⟨S8x2048x256, .f32⟩
  | .hbm, ⟨31, _⟩ => ⟨S8x2048x256, .f32⟩
  | .hbm, ⟨32, _⟩ => ⟨S_, .f32⟩
  | .hbm, ⟨33, _⟩ => ⟨S8x2048x256, .f32⟩
  | .hbm, ⟨34, _⟩ => ⟨S8x2048x256, .f32⟩
  | .hbm, ⟨35, _⟩ => ⟨S1x256x256, .f32⟩
  | .hbm, ⟨36, _⟩ => ⟨S256x256, .f32⟩
  | .hbm, ⟨37, _⟩ => ⟨S8x2048x256, .f32⟩
  | .hbm, ⟨38, _⟩ => ⟨S1x256, .f32⟩
  | .hbm, ⟨39, _⟩ => ⟨S256, .f32⟩
  | .hbm, ⟨40, _⟩ => ⟨S1x1x256, .f32⟩
  | .hbm, ⟨41, _⟩ => ⟨S8x2048x256, .f32⟩
  | .hbm, ⟨42, _⟩ => ⟨S8x2048x256, .f32⟩
  | .hbm, ⟨43, _⟩ => ⟨S8x2048x256, .f32⟩
  | .hbm, ⟨44, _⟩ => ⟨S1x256x256, .f32⟩
  | .hbm, ⟨45, _⟩ => ⟨S256x256, .f32⟩
  | .hbm, ⟨46, _⟩ => ⟨S8x2048x256, .f32⟩
  | .hbm, ⟨47, _⟩ => ⟨S1x256, .f32⟩
  | .hbm, ⟨48, _⟩ => ⟨S256, .f32⟩
  | .hbm, ⟨49, _⟩ => ⟨S1x1x256, .f32⟩
  | .hbm, ⟨50, _⟩ => ⟨S8x2048x256, .f32⟩
  | .hbm, ⟨51, _⟩ => ⟨S8x2048x256, .f32⟩
  | .hbm, ⟨52, _⟩ => ⟨S8x2048x256, .f32⟩
  | .hbm, ⟨53, _⟩ => ⟨S8x2048x256, .f32⟩
  | .hbm, ⟨54, _⟩ => ⟨S8x2048x256, .f32⟩
  | .hbm, ⟨55, _⟩ => ⟨S_, .f32⟩
  | .hbm, ⟨56, _⟩ => ⟨S8x2048x256, .f32⟩
  | .hbm, ⟨57, _⟩ => ⟨S8x2048x256, .f32⟩
  | .hbm, ⟨58, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_cst : Ref sig .tc := ⟨.hbm, 32, rfl⟩
abbrev main_call0_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_call1_cst : Ref sig .tc := ⟨.hbm, 55, rfl⟩
abbrev main_call1_v0 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S8x2048x1_S8x2048x256_0_1_2 : S8x2048x1.BroadcastsInDim S8x2048x256 (![0, 1, 2] : Fin 3 → Fin S8x2048x256.rank)
  bcast_S_S8x2048x256 : S_.BroadcastsInDim S8x2048x256 (![] : Fin 0 → Fin S8x2048x256.rank)
  slices_S2x256x256_S1x256x256_1_0_0 : S2x256x256.Slices ![1, 0, 0] S1x256x256
  slices_S2x256_S1x256_1_0 : S2x256.Slices ![1, 0] S1x256
  dot_S8x2048x256_S256x256_S8x2048x256_2_1_01_0_n_n_wf : DotDims.WF S8x2048x256 S256x256 S8x2048x256 [2] [1] [0, 1] [0] [] []
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.KI.RunArrays.lean ====
import proofs.«139723_j51213190037828_1_alg».proof.Proof.Gen.KernelIdeal.Regions
import Idealize.ShloMosaic.Lib.Pipeline.FrameBody
import Idealize.ShloMosaic.Lib.Pipeline.FrameSuffix
import Idealize.ShloMosaic.Lib.Pipeline.RegionsLoop
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev shareOf : Fin 8 → PosShare TreeShare
  | 0 => fullShare.left
  | 1 => fullShare.right
  | _ => fullShare

section Arrays0
variable {c : Dev nD} (dat : Dat τ (Elt F) Unit ℕ (UR sig nD τ) ℕ cfg0 c)
  (V : (b : Ref sig .tc) → Buf (Elt F) ((c : Thread nD τ).loc b))

theorem share0_0 (hq : dat.q 0 = fullShare.left) : dat.share 0 = fullShare.left := by
  unfold Dat.share; rw [if_neg (by decide), hq]
theorem share0_1 (hq : dat.q 1 = fullShare.right) : dat.share 1 = fullShare.right := by
  unfold Dat.share; rw [if_neg (by decide), hq]
theorem share0_2 (hq : dat.q 2 = fullShare) : dat.share 2 = fullShare := by
  unfold Dat.share; rw [if_neg (by decide), hq]
theorem share0_3 (hq : dat.q 3 = fullShare) : dat.share 3 = fullShare := by
  unfold Dat.share; rw [if_neg (by decide), hq]
theorem share0_4 (hq : dat.q 4 = fullShare) : dat.share 4 = fullShare := by
  unfold Dat.share; rw [if_neg (by decide), hq]
theorem share0_5 (hq : dat.q 5 = fullShare) : dat.share 5 = fullShare := by
  unfold Dat.share; rw [if_neg (by decide), hq]
theorem share0_6 (hq : dat.q 6 = fullShare) : dat.share 6 = fullShare := by
  unfold Dat.share; rw [if_neg (by decide), hq]
theorem share0_7 : dat.share 7 = fullShare := by
  unfold Dat.share; rw [if_pos (by decide)]

theorem arrays0_chain (hq0 : dat.q 0 = fullShare.left) (hq1 : dat.q 1 = fullShare.right) (hq2 : dat.q 2 = fullShare) (hq3 : dat.q 3 = fullShare) (hq4 : dat.q 4 = fullShare) (hq5 : dat.q 5 = fullShare) (hq6 : dat.q 6 = fullShare)
    (G : (w : Fin cfg0.W) → Buf (Elt F) ((cfg0.win w).arr.view.loc (c : Thread nD τ))) :
    (dat.arrays G : sProp 𝕄) = iprop((((c : Thread nD τ).loc (Pipeline.arrRef spec0 0)) ↦{fullShare.left} G 0) ∗ (((c : Thread nD τ).loc (Pipeline.arrRef spec0 1)) ↦{fullShare.right} G 1) ∗ (((c : Thread nD τ).loc (Pipeline.arrRef spec0 2)) ↦{fullShare} G 2) ∗ (((c : Thread nD τ).loc (Pipeline.arrRef spec0 3)) ↦{fullShare} G 3) ∗ (((c : Thread nD τ).loc (Pipeline.arrRef spec0 4)) ↦{fullShare} G 4) ∗ (((c : Thread nD τ).loc (Pipeline.arrRef spec0 5)) ↦{fullShare} G 5) ∗ (((c : Thread nD τ).loc (Pipeline.arrRef spec0 6)) ↦{fullShare} G 6) ∗ (((c : Thread nD τ).loc (Pipeline.arrRef spec0 7)) ↦{fullShare} G 7)) := by
  have hs : ∀ w : Fin 8, dat.share w = (shareOf w) := fun
    | 0 => share0_0 dat hq0 | 1 => share0_1 dat hq1 | 2 => share0_2 dat hq2 | 3 => share0_3 dat hq3
    | 4 => share0_4 dat hq4 | 5 => share0_5 dat hq5 | 6 => share0_6 dat hq6 | 7 => share0_7 dat
    | ⟨_ + 8, h⟩ => absurd h (Nat.not_lt.2 (Nat.le_add_left _ _))
  have h : (dat.arrays G : sProp 𝕄)
      = bigSep Finset.univ fun w : Fin 8 => (((c : Thread nD τ).loc (Pipeline.arrRef spec0 w)) ↦{shareOf w} G w : sProp 𝕄) := by
    unfold Dat.arrays
    exact bigSep_congr fun w _ => by rw [(arr_whole0 w).set_eq_univ, hs w]
  rw [h, bigSep_W0]
  rfl

theorem arrBufs0_chain :
    (Pipeline.arrBufs spec0 c V : sProp 𝕄) = iprop((((c : Thread nD τ).loc (Pipeline.arrRef spec0 0)) ↦{fullShare} V (Pipeline.arrRef spec0 0)) ∗ (((c : Thread nD τ).loc (Pipeline.arrRef spec0 2)) ↦{fullShare} V (Pipeline.arrRef spec0 2)) ∗ (((c : Thread nD τ).loc (Pipeline.arrRef spec0 3)) ↦{fullShare} V (Pipeline.arrRef spec0 3)) ∗ (((c : Thread nD τ).loc (Pipeline.arrRef spec0 4)) ↦{fullShare} V (Pipeline.arrRef spec0 4)) ∗ (((c : Thread nD τ).loc (Pipeline.arrRef spec0 5)) ↦{fullShare} V (Pipeline.arrRef spec0 5)) ∗ (((c : Thread nD τ).loc (Pipeline.arrRef spec0 6)) ↦{fullShare} V (Pipeline.arrRef spec0 6)) ∗ (((c : Thread nD τ).loc (Pipeline.arrRef spec0 7)) ↦{fullShare} V (Pipeline.arrRef spec0 7))) := by
  unfold Pipeline.arrBufs
  exact bigSep_eq_bigSepL_of_eq [(Pipeline.arrRef spec0 0), (Pipeline.arrRef spec0 2), (Pipeline.arrRef spec0 3), (Pipeline.arrRef spec0 4), (Pipeline.arrRef spec0 5), (Pipeline.arrRef spec0 6), (Pipeline.arrRef spec0 7)] (by decide) (by decide) _

theorem unscopedBufs0_split :
    (unscopedBufs c V : sProp 𝕄) = iprop(Pipeline.arrBufs spec0 c V ∗ Pipeline.unscopedRest spec0 c V) :=
  Pipeline.unscopedBufs_split₀ cfgs 0 winFacts₀0.arr_unscoped c V

theorem arr0_01 : Pipeline.arrRef spec0 1 = Pipeline.arrRef spec0 0 := by decide

set_option maxHeartbeats 1000000 in

theorem entry0 (hA : ∀ w, dat.A w = V (Pipeline.arrRef spec0 w)) (hq0 : dat.q 0 = fullShare.left) (hq1 : dat.q 1 = fullShare.right) (hq2 : dat.q 2 = fullShare) (hq3 : dat.q 3 = fullShare) (hq4 : dat.q 4 = fullShare) (hq5 : dat.q 5 = fullShare) (hq6 : dat.q 6 = fullShare) :
    (unscopedBufs c V : sProp 𝕄) ⊢ iprop(dat.arrays (dat.arrAt · 0) ∗ Pipeline.unscopedRest spec0 c V) := by
  rw [show (fun w => dat.arrAt w 0) = (fun w => V (Pipeline.arrRef spec0 w)) from funext hA,
    unscopedBufs0_split, arrBufs0_chain, arrays0_chain dat hq0 hq1 hq2 hq3 hq4 hq5 hq6, arr0_01]
  iintro ⟨⟨Hs, H2, H3, H4, H5, H6, H7⟩, Hrest⟩
  ihave Hs' := (pointsTo_share (PosShare.mem_left_op_right fullShare)).1 $$ Hs
  icases Hs' with ⟨Ha, Hb⟩
  isplitr [Hrest]
  · isplitl [Ha]; · iexact Ha
    isplitl [Hb]; · iexact Hb
    isplitl [H2]; · iexact H2
    isplitl [H3]; · iexact H3
    isplitl [H4]; · iexact H4
    isplitl [H5]; · iexact H5
    isplitl [H6]; · iexact H6
    iexact H7
  · iexact Hrest

set_option maxHeartbeats 1000000 in

theorem exit0 (hA : ∀ w, dat.A w = V (Pipeline.arrRef spec0 w)) (hq0 : dat.q 0 = fullShare.left) (hq1 : dat.q 1 = fullShare.right) (hq2 : dat.q 2 = fullShare) (hq3 : dat.q 3 = fullShare) (hq4 : dat.q 4 = fullShare) (hq5 : dat.q 5 = fullShare) (hq6 : dat.q 6 = fullShare)
    (V' : (b : Ref sig .tc) → Buf (Elt F) ((c : Thread nD τ).loc b))
    (hV' : ∀ b, b ≠ Pipeline.arrRef spec0 7 → V' b = V b) (hout : V' (Pipeline.arrRef spec0 7) = dat.arrAt 7 cfg0.N) :
    iprop(dat.arrays (dat.arrAt · cfg0.N) ∗ Pipeline.unscopedRest spec0 c V) ⊢ (unscopedBufs c V' : sProp 𝕄) := by
  have hrest : (Pipeline.unscopedRest spec0 c V' : sProp 𝕄) = Pipeline.unscopedRest spec0 c V := by
    unfold Pipeline.unscopedRest
    refine bigSep_congr fun b hb => ?_
    rw [hV' b fun e => (Finset.mem_sdiff.mp hb).2 (Finset.mem_image.mpr ⟨7, Finset.mem_univ _, e.symm⟩)]
  have hG : ∀ w : Fin 8, dat.arrAt w cfg0.N = V' (Pipeline.arrRef spec0 w) := fun w => by
    by_cases h7 : w = 7
    · subst h7; exact hout.symm
    · have hin : (cfg0.win w).isOut = false := by revert w; decide
      have hne : Pipeline.arrRef spec0 w ≠ Pipeline.arrRef spec0 7 := by revert w; decide
      exact ((dat.arrAt_in w hin _).trans (hA w)).trans (hV' _ hne).symm
  rw [show (fun w => dat.arrAt w cfg0.N) = (fun w => V' (Pipeline.arrRef spec0 w)) from funext hG,
    unscopedBufs0_split, hrest, arrBufs0_chain, arrays0_chain dat hq0 hq1 hq2 hq3 hq4 hq5 hq6, arr0_01]
  iintro ⟨⟨Ha, Hb, H2, H3, H4, H5, H6, H7⟩, Hrest⟩
  ihave Hs := (pointsTo_share (PosShare.mem_left_op_right fullShare)).2 $$ [Ha Hb]
  · isplitl [Ha]; · iexact Ha
    iexact Hb
  isplitr [Hrest]
  · isplitl [Hs]; · iexact Hs
    isplitl [H2]; · iexact H2
    isplitl [H3]; · iexact H3
    isplitl [H4]; · iexact H4
    isplitl [H5]; · iexact H5
    isplitl [H6]; · iexact H6
    iexact H7
  · iexact Hrest

end Arrays0

section Arrays1
variable {c : Dev nD} (dat : Dat τ (Elt F) Unit ℕ (UR sig nD τ) ℕ cfg1 c)
  (V : (b : Ref sig .tc) → Buf (Elt F) ((c : Thread nD τ).loc b))

theorem share1_0 (hq : dat.q 0 = fullShare.left) : dat.share 0 = fullShare.left := by
  unfold Dat.share; rw [if_neg (by decide), hq]
theorem share1_1 (hq : dat.q 1 = fullShare.right) : dat.share 1 = fullShare.right := by
  unfold Dat.share; rw [if_neg (by decide), hq]
theorem share1_2 (hq : dat.q 2 = fullShare) : dat.share 2 = fullShare := by
  unfold Dat.share; rw [if_neg (by decide), hq]
theorem share1_3 (hq : dat.q 3 = fullShare) : dat.share 3 = fullShare := by
  unfold Dat.share; rw [if_neg (by decide), hq]
theorem share1_4 (hq : dat.q 4 = fullShare) : dat.share 4 = fullShare := by
  unfold Dat.share; rw [if_neg (by decide), hq]
theorem share1_5 (hq : dat.q 5 = fullShare) : dat.share 5 = fullShare := by
  unfold Dat.share; rw [if_neg (by decide), hq]
theorem share1_6 (hq : dat.q 6 = fullShare) : dat.share 6 = fullShare := by
  unfold Dat.share; rw [if_neg (by decide), hq]
theorem share1_7 : dat.share 7 = fullShare := by
  unfold Dat.share; rw [if_pos (by decide)]

theorem arrays1_chain (hq0 : dat.q 0 = fullShare.left) (hq1 : dat.q 1 = fullShare.right) (hq2 : dat.q 2 = fullShare) (hq3 : dat.q 3 = fullShare) (hq4 : dat.q 4 = fullShare) (hq5 : dat.q 5 = fullShare) (hq6 : dat.q 6 = fullShare)
    (G : (w : Fin cfg1.W) → Buf (Elt F) ((cfg1.win w).arr.view.loc (c : Thread nD τ))) :
    (dat.arrays G : sProp 𝕄) = iprop((((c : Thread nD τ).loc (Pipeline.arrRef spec1 0)) ↦{fullShare.left} G 0) ∗ (((c : Thread nD τ).loc (Pipeline.arrRef spec1 1)) ↦{fullShare.right} G 1) ∗ (((c : Thread nD τ).loc (Pipeline.arrRef spec1 2)) ↦{fullShare} G 2) ∗ (((c : Thread nD τ).loc (Pipeline.arrRef spec1 3)) ↦{fullShare} G 3) ∗ (((c : Thread nD τ).loc (Pipeline.arrRef spec1 4)) ↦{fullShare} G 4) ∗ (((c : Thread nD τ).loc (Pipeline.arrRef spec1 5)) ↦{fullShare} G 5) ∗ (((c : Thread nD τ).loc (Pipeline.arrRef spec1 6)) ↦{fullShare} G 6) ∗ (((c : Thread nD τ).loc (Pipeline.arrRef spec1 7)) ↦{fullShare} G 7)) := by
  have hs : ∀ w : Fin 8, dat.share w = (shareOf w) := fun
    | 0 => share1_0 dat hq0 | 1 => share1_1 dat hq1 | 2 => share1_2 dat hq2 | 3 => share1_3 dat hq3
    | 4 => share1_4 dat hq4 | 5 => share1_5 dat hq5 | 6 => share1_6 dat hq6 | 7 => share1_7 dat
    | ⟨_ + 8, h⟩ => absurd h (Nat.not_lt.2 (Nat.le_add_left _ _))
  have h : (dat.arrays G : sProp 𝕄)
      = bigSep Finset.univ fun w : Fin 8 => (((c : Thread nD τ).loc (Pipeline.arrRef spec1 w)) ↦{shareOf w} G w : sProp 𝕄) := by
    unfold Dat.arrays
    exact bigSep_congr fun w _ => by rw [(arr_whole1 w).set_eq_univ, hs w]
  rw [h, bigSep_W1]
  rfl

theorem arrBufs1_chain :
    (Pipeline.arrBufs spec1 c V : sProp 𝕄) = iprop((((c : Thread nD τ).loc (Pipeline.arrRef spec1 0)) ↦{fullShare} V (Pipeline.arrRef spec1 0)) ∗ (((c : Thread nD τ).loc (Pipeline.arrRef spec1 2)) ↦{fullShare} V (Pipeline.arrRef spec1 2)) ∗ (((c : Thread nD τ).loc (Pipeline.arrRef spec1 3)) ↦{fullShare} V (Pipeline.arrRef spec1 3)) ∗ (((c : Thread nD τ).loc (Pipeline.arrRef spec1 4)) ↦{fullShare} V (Pipeline.arrRef spec1 4)) ∗ (((c : Thread nD τ).loc (Pipeline.arrRef spec1 5)) ↦{fullShare} V (Pipeline.arrRef spec1 5)) ∗ (((c : Thread nD τ).loc (Pipeline.arrRef spec1 6)) ↦{fullShare} V (Pipeline.arrRef spec1 6)) ∗ (((c : Thread nD τ).loc (Pipeline.arrRef spec1 7)) ↦{fullShare} V (Pipeline.arrRef spec1 7))) := by
  unfold Pipeline.arrBufs
  exact bigSep_eq_bigSepL_of_eq [(Pipeline.arrRef spec1 0), (Pipeline.arrRef spec1 2), (Pipeline.arrRef spec1 3), (Pipeline.arrRef spec1 4), (Pipeline.arrRef spec1 5), (Pipeline.arrRef spec1 6), (Pipeline.arrRef spec1 7)] (by decide) (by decide) _

theorem unscopedBufs1_split :
    (unscopedBufs c V : sProp 𝕄) = iprop(Pipeline.arrBufs spec1 c V ∗ Pipeline.unscopedRest spec1 c V) :=
  Pipeline.unscopedBufs_split₀ cfgs 1 winFacts₀1.arr_unscoped c V

theorem arr1_01 : Pipeline.arrRef spec1 1 = Pipeline.arrRef spec1 0 := by decide

set_option maxHeartbeats 1000000 in

theorem entry1 (hA : ∀ w, dat.A w = V (Pipeline.arrRef spec1 w)) (hq0 : dat.q 0 = fullShare.left) (hq1 : dat.q 1 = fullShare.right) (hq2 : dat.q 2 = fullShare) (hq3 : dat.q 3 = fullShare) (hq4 : dat.q 4 = fullShare) (hq5 : dat.q 5 = fullShare) (hq6 : dat.q 6 = fullShare) :
    (unscopedBufs c V : sProp 𝕄) ⊢ iprop(dat.arrays (dat.arrAt · 0) ∗ Pipeline.unscopedRest spec1 c V) := by
  rw [show (fun w => dat.arrAt w 0) = (fun w => V (Pipeline.arrRef spec1 w)) from funext hA,
    unscopedBufs1_split, arrBufs1_chain, arrays1_chain dat hq0 hq1 hq2 hq3 hq4 hq5 hq6, arr1_01]
  iintro ⟨⟨Hs, H2, H3, H4, H5, H6, H7⟩, Hrest⟩
  ihave Hs' := (pointsTo_share (PosShare.mem_left_op_right fullShare)).1 $$ Hs
  icases Hs' with ⟨Ha, Hb⟩
  isplitr [Hrest]
  · isplitl [Ha]; · iexact Ha
    isplitl [Hb]; · iexact Hb
    isplitl [H2]; · iexact H2
    isplitl [H3]; · iexact H3
    isplitl [H4]; · iexact H4
    isplitl [H5]; · iexact H5
    isplitl [H6]; · iexact H6
    iexact H7
  · iexact Hrest

set_option maxHeartbeats 1000000 in

theorem exit1 (hA : ∀ w, dat.A w = V (Pipeline.arrRef spec1 w)) (hq0 : dat.q 0 = fullShare.left) (hq1 : dat.q 1 = fullShare.right) (hq2 : dat.q 2 = fullShare) (hq3 : dat.q 3 = fullShare) (hq4 : dat.q 4 = fullShare) (hq5 : dat.q 5 = fullShare) (hq6 : dat.q 6 = fullShare)
    (V' : (b : Ref sig .tc) → Buf (Elt F) ((c : Thread nD τ).loc b))
    (hV' : ∀ b, b ≠ Pipeline.arrRef spec1 7 → V' b = V b) (hout : V' (Pipeline.arrRef spec1 7) = dat.arrAt 7 cfg1.N) :
    iprop(dat.arrays (dat.arrAt · cfg1.N) ∗ Pipeline.unscopedRest spec1 c V) ⊢ (unscopedBufs c V' : sProp 𝕄) := by
  have hrest : (Pipeline.unscopedRest spec1 c V' : sProp 𝕄) = Pipeline.unscopedRest spec1 c V := by
    unfold Pipeline.unscopedRest
    refine bigSep_congr fun b hb => ?_
    rw [hV' b fun e => (Finset.mem_sdiff.mp hb).2 (Finset.mem_image.mpr ⟨7, Finset.mem_univ _, e.symm⟩)]
  have hG : ∀ w : Fin 8, dat.arrAt w cfg1.N = V' (Pipeline.arrRef spec1 w) := fun w => by
    by_cases h7 : w = 7
    · subst h7; exact hout.symm
    · have hin : (cfg1.win w).isOut = false := by revert w; decide
      have hne : Pipeline.arrRef spec1 w ≠ Pipeline.arrRef spec1 7 := by revert w; decide
      exact ((dat.arrAt_in w hin _).trans (hA w)).trans (hV' _ hne).symm
  rw [show (fun w => dat.arrAt w cfg1.N) = (fun w => V' (Pipeline.arrRef spec1 w)) from funext hG,
    unscopedBufs1_split, hrest, arrBufs1_chain, arrays1_chain dat hq0 hq1 hq2 hq3 hq4 hq5 hq6, arr1_01]
  iintro ⟨⟨Ha, Hb, H2, H3, H4, H5, H6, H7⟩, Hrest⟩
  ihave Hs := (pointsTo_share (PosShare.mem_left_op_right fullShare)).2 $$ [Ha Hb]
  · isplitl [Ha]; · iexact Ha
    iexact Hb
  isplitr [Hrest]
  · isplitl [Hs]; · iexact Hs
    isplitl [H2]; · iexact H2
    isplitl [H3]; · iexact H3
    isplitl [H4]; · iexact H4
    isplitl [H5]; · iexact H5
    isplitl [H6]; · iexact H6
    iexact H7
  · iexact Hrest

end Arrays1

end Cert.KernelIdeal.Run

end
-- ==== Proof.KI.Body.lean ====
import proofs.«139723_j51213190037828_1_alg».proof.Proof.Gen.KernelIdeal.Launch
import proofs.«139723_j51213190037828_1_alg».proof.Proof.Gen.KernelIdeal.Skeleton
import proofs.«139723_j51213190037828_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's two branch conditions on the block coordinate: k = 0, and k = 3. -/
abbrev condFirst (i : grid0.Coords) : Prop := (Scalar.cmpi .ne (Scalar.extui (Scalar.cmpi .eq (BitVec.ofNat 32 (i 1).val) 0#32)) 0#32) = 1#1
abbrev condLast (i : grid0.Coords) : Prop := k0_cond2 i = 1#1

/-- The eleven whole memrefs the body is called with: seven inputs, the output, three scratch. -/
structure Mem where
  a2 : Memref sig .tc .vmem S1x512x256 .f32
  h2 : a2.IsWhole
  a3 : Memref sig .tc .vmem S1x2048x256 .f32
  h3 : a3.IsWhole
  a4 : Memref sig .tc .vmem S1x2048x512 .f32
  h4 : a4.IsWhole
  a5 : Memref sig .tc .vmem S256x256 .f32
  h5 : a5.IsWhole
  a6 : Memref sig .tc .vmem S1x256 .f32
  h6 : a6.IsWhole
  a7 : Memref sig .tc .vmem S256x256 .f32
  h7 : a7.IsWhole
  a8 : Memref sig .tc .vmem S1x256 .f32
  h8 : a8.IsWhole
  a9 : Memref sig .tc .vmem S1x2048x256 .f32
  h9 : a9.IsWhole
  a10 : Memref sig .tc .vmem S2048x256 .f32
  h10 : a10.IsWhole
  a11 : Memref sig .tc .vmem S2048x256 .f32
  h11 : a11.IsWhole
  a12 : Memref sig .tc .vmem S2048x1 .f32
  h12 : a12.IsWhole

/-- The seven input blocks of a point. -/
structure Ins (F : FTy → Type) [FloatOps F] where
  x0 : Vec F S1x512x256 .f32
  x1 : Vec F S1x2048x256 .f32
  x2 : Vec F S1x2048x512 .f32
  x3 : Vec F S256x256 .f32
  x4 : Vec F S1x256 .f32
  x5 : Vec F S256x256 .f32
  x6 : Vec F S1x256 .f32

abbrev kbody (i : grid0.Coords) (M : Mem) :=
  cc0__gcn_layer_kernel (F := F) i M.a2 M.h2 M.a3 M.h3 M.a4 M.h4 M.a5 M.h5 M.a6 M.h6 M.a7 M.h7 M.a8 M.h8 M.a9 M.h9 M.a10 M.h10 M.a11 M.h11 M.a12 M.h12

/-- The input buffers at their blocks, beside `R`. -/
def insAnd (c : Dev nD) (M : Mem) (X : Ins F) (R : sProp 𝕄) : sProp 𝕄 :=
  iprop(owns (c : Thread nD τ) M.a2 fullShare X.x0 ∗ owns (c : Thread nD τ) M.a3 fullShare X.x1 ∗ owns (c : Thread nD τ) M.a4 fullShare X.x2 ∗ owns (c : Thread nD τ) M.a5 fullShare X.x3 ∗ owns (c : Thread nD τ) M.a6 fullShare X.x4 ∗ owns (c : Thread nD τ) M.a7 fullShare X.x5 ∗ owns (c : Thread nD τ) M.a8 fullShare X.x6 ∗ R)

/-- A buffer with the pieces `L` written into it. -/
def written (c : Dev nD) {S : Shape} (m : Memref sig .tc .vmem S .f32) (L : List (View.Piece (Elt F) S .f32)) : sProp 𝕄 :=
  iprop(∃ f, m.view.loc (c : Thread nD τ) ↦[m.view.set]{fullShare} m.view.writes (Elt F) f L)

/-- What pieces written over any prior contents leave in a buffer. -/
def found {S : Shape} (m : Memref sig .tc .vmem S .f32) (L : List (View.Piece (Elt F) S .f32)) : Vec F S .f32 :=
  m.view.read (Elt F) (m.view.writes (Elt F) m.view.junk L)

/-- Pieces that cover a buffer leave in it what they say, whatever it held. -/
theorem owns_found (c : Dev nD) {S : Shape} (m m' : Memref sig .tc .vmem S .f32)
    (L : List (View.Piece (Elt F) S .f32)) (h : ∀ y, ∃ pc ∈ L, y ∈ pc.1.set) :
    written c m L ⊢ owns (c : Thread nD τ) m fullShare (found m' L) := by
  unfold written owns found
  iintro ⟨%f, H⟩
  iexists _; isplitr
  swap; · iexact H
  ipureintro; exact View.read_writes_of_cover _ _ _ _ _ h

end Cert.KernelIdeal.Body

end
-- ==== Proof.KI.R0Base.lean ====
import proofs.«139723_j51213190037828_1_alg».proof.Proof.KI.Body

set_option maxRecDepth 16384

noncomputable section

namespace Cert.KernelIdeal.R0

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hcondFirst : ∀ t : Fin cfg0.N, condFirst (grid0.coords t) ↔ t.val % 4 = 0 :=
  (by decide +kernel : ∀ t : Fin grid0.N, condFirst (grid0.coords t) ↔ t.val % 4 = 0)

theorem hcondLast : ∀ t : Fin cfg0.N, condLast (grid0.coords t) ↔ t.val % 4 = 3 :=
  (by decide +kernel : ∀ t : Fin grid0.N, condLast (grid0.coords t) ↔ t.val % 4 = 3)

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel

theorem idle_7 : ∀ t : Fin cfg0.N, ¬condLast (grid0.coords t) → cfg0.idle 7 (grid0.coords t) = true := by decide +kernel
theorem noFlush_7 : ∀ t : Fin cfg0.N, ¬condLast (grid0.coords t) → (cfg0.win 7).flush t = false := by decide +kernel

theorem live_7 : ∀ t : Fin cfg0.N, condLast (grid0.coords t) → cfg0.idle 7 (grid0.coords t) = false := by decide +kernel

abbrev ms_0 (t : Fin cfg0.N) : Memref sig .tc .vmem S1x512x256 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x2048x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x2048x512 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S256x256 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x256 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S256x256 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x256 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x2048x256 .f32 := win0_7.stage (cfg0.slots t 7)
abbrev hs_7 (t : Fin cfg0.N) : (ms_7 t).IsWhole := hstage0_7 ((cfg0.slots t 7).cast nbuf0_7)

abbrev scAcc : Memref sig .tc .vmem S2048x256 .f32 := Memref.whole cc0_scratch0
abbrev scSelf : Memref sig .tc .vmem S2048x256 .f32 := Memref.whole cc0_scratch1
abbrev scDen : Memref sig .tc .vmem S2048x1 .f32 := Memref.whole cc0_scratch2

abbrev VOut : View sig .tc .vmem S1x2048x256 .f32 := (Memref.whole cc0_stg7_0 : Memref sig .tc .vmem S1x2048x256 .f32).view

/-- The scoped buffers other than the kernel's three scratch buffers and this region's window buffers, each at some contents. -/
abbrev otherRest (c : Dev nD) : sProp 𝕄 :=
  Pipeline.scopedRestBut (Ix := Unit) (Name := ℕ) (U := UR sig nD τ) (Lvl := ℕ) (Val := Elt F) spec0 c [cc0_scratch0, cc0_scratch1, cc0_scratch2]

theorem scopedRest_eq' (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)) ∗ otherRest c) :=
  Pipeline.scopedRest_split_of_list spec0 c [cc0_scratch0, cc0_scratch1, cc0_scratch2] (by decide) (by decide)

end Cert.KernelIdeal.R0

end
-- ==== Proof.KI.BodyFirst.lean ====
import proofs.«139723_j51213190037828_1_alg».proof.Proof.KI.Body

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- k = 0: both accumulators are cleared, the self term stored, and this block's share added; the output's buffer is kept. -/
noncomputable def runFirst (c : Dev nD) (i : grid0.Coords) (M : Mem) (X : Ins F) (hc0 : condFirst i) (hc1 : ¬condLast i) :
    Σ' (LA : List (View.Piece (Elt F) S2048x256 .f32)), Σ' (LS : List (View.Piece (Elt F) S2048x256 .f32)), { LD : List (View.Piece (Elt F) S2048x1 .f32) //
      ∀ (xi7 : Vec F S1x2048x256 .f32) (E : Set ℕ) (K : PUnit → sProp 𝕄),
        insAnd c M X iprop(owns (c : Thread nD τ) M.a9 fullShare xi7 ∗ (∃ d, owns (c : Thread nD τ) M.a10 fullShare d) ∗ (∃ d, owns (c : Thread nD τ) M.a11 fullShare d) ∗ (∃ d, owns (c : Thread nD τ) M.a12 fullShare d)
            ∗ (insAnd c M X iprop(owns (c : Thread nD τ) M.a9 fullShare xi7 ∗ written c M.a10 LA ∗ written c M.a11 LS ∗ written c M.a12 LD) -∗ K ⟨⟩))
          ⊢ wp frame (wpE (defs₀ (F := F)) Variants.none c none) E (kbody (F := F) i M) K } := by
  refine ⟨?_, ?_, ?_, fun xi7 E K => ?run⟩
  case run =>
    simp only [kbody, cc0__gcn_layer_kernel_eq_skeleton]; unfold cc0__gcn_layer_kernel_skel
    unfold insAnd written owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%da, %fa, -, HA⟩, ⟨%ds, %fs, -, HS⟩, ⟨%dd, %fd, -, HD⟩, Hk⟩
    obtain rfl := M.h2.eq_unread hf0; obtain rfl := M.h3.eq_unread hf1; obtain rfl := M.h4.eq_unread hf2; obtain rfl := M.h5.eq_unread hf3; obtain rfl := M.h6.eq_unread hf4; obtain rfl := M.h7.eq_unread hf5; obtain rfl := M.h8.eq_unread hf6; obtain rfl := M.h9.eq_unread hf7
    sl_exec (disch := first | exact hc0 | exact hc1)
    sl_step
    iapply Hk
    isplitl [H0]
    · iexists _; isplitr; · ipureintro; exact M.h2.read_unread _
      iexact H0
    isplitl [H1]
    · iexists _; isplitr; · ipureintro; exact M.h3.read_unread _
      iexact H1
    isplitl [H2]
    · iexists _; isplitr; · ipureintro; exact M.h4.read_unread _
      iexact H2
    isplitl [H3]
    · iexists _; isplitr; · ipureintro; exact M.h5.read_unread _
      iexact H3
    isplitl [H4]
    · iexists _; isplitr; · ipureintro; exact M.h6.read_unread _
      iexact H4
    isplitl [H5]
    · iexists _; isplitr; · ipureintro; exact M.h7.read_unread _
      iexact H5
    isplitl [H6]
    · iexists _; isplitr; · ipureintro; exact M.h8.read_unread _
      iexact H6
    isplitl [H7]
    · iexists _; isplitr; · ipureintro; exact M.h9.read_unread _
      iexact H7
    isplitl [HA]; · iexists _; iexact HA
    isplitl [HS]; · iexists _; iexact HS
    iexists _; iexact HD

end Cert.KernelIdeal.Body

end
-- ==== Proof.KI.BodyMid.lean ====
import proofs.«139723_j51213190037828_1_alg».proof.Proof.KI.BodyFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- k = 1, 2: this block's share is added to both accumulators; the self term and the output's buffer are kept. -/
noncomputable def runMid (c : Dev nD) (i : grid0.Coords) (M : Mem) (X : Ins F) (hc0 : ¬condFirst i) (hc1 : ¬condLast i)
    (xa : Vec F S2048x256 .f32) (xd : Vec F S2048x1 .f32) :
    Σ' (LA : List (View.Piece (Elt F) S2048x256 .f32)), { LD : List (View.Piece (Elt F) S2048x1 .f32) //
      ∀ (xi7 : Vec F S1x2048x256 .f32) (xs : Vec F S2048x256 .f32) (E : Set ℕ) (K : PUnit → sProp 𝕄),
        insAnd c M X iprop(owns (c : Thread nD τ) M.a9 fullShare xi7 ∗ owns (c : Thread nD τ) M.a10 fullShare xa ∗ owns (c : Thread nD τ) M.a11 fullShare xs ∗ owns (c : Thread nD τ) M.a12 fullShare xd
            ∗ (insAnd c M X iprop(owns (c : Thread nD τ) M.a9 fullShare xi7 ∗ written c M.a10 LA ∗ owns (c : Thread nD τ) M.a11 fullShare xs ∗ written c M.a12 LD) -∗ K ⟨⟩))
          ⊢ wp frame (wpE (defs₀ (F := F)) Variants.none c none) E (kbody (F := F) i M) K } := by
  refine ⟨?_, ?_, fun xi7 xs E K => ?run⟩
  case run =>
    simp only [kbody, cc0__gcn_layer_kernel_eq_skeleton]; unfold cc0__gcn_layer_kernel_skel
    unfold insAnd written owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fa, %hfa, HA⟩, ⟨%fs, %hfs, HS⟩, ⟨%fd, %hfd, HD⟩, Hk⟩
    obtain rfl := M.h2.eq_unread hf0; obtain rfl := M.h3.eq_unread hf1; obtain rfl := M.h4.eq_unread hf2; obtain rfl := M.h5.eq_unread hf3; obtain rfl := M.h6.eq_unread hf4; obtain rfl := M.h7.eq_unread hf5; obtain rfl := M.h8.eq_unread hf6; obtain rfl := M.h9.eq_unread hf7; obtain rfl := M.h10.eq_unread hfa; obtain rfl := M.h11.eq_unread hfs; obtain rfl := M.h12.eq_unread hfd
    sl_exec (disch := first | exact hc0 | exact hc1)
    sl_step
    iapply Hk
    isplitl [H0]
    · iexists _; isplitr; · ipureintro; exact M.h2.read_unread _
      iexact H0
    isplitl [H1]
    · iexists _; isplitr; · ipureintro; exact M.h3.read_unread _
      iexact H1
    isplitl [H2]
    · iexists _; isplitr; · ipureintro; exact M.h4.read_unread _
      iexact H2
    isplitl [H3]
    · iexists _; isplitr; · ipureintro; exact M.h5.read_unread _
      iexact H3
    isplitl [H4]
    · iexists _; isplitr; · ipureintro; exact M.h6.read_unread _
      iexact H4
    isplitl [H5]
    · iexists _; isplitr; · ipureintro; exact M.h7.read_unread _
      iexact H5
    isplitl [H6]
    · iexists _; isplitr; · ipureintro; exact M.h8.read_unread _
      iexact H6
    isplitl [H7]
    · iexists _; isplitr; · ipureintro; exact M.h9.read_unread _
      iexact H7
    isplitl [HA]; · iexists _; iexact HA
    isplitl [HS]
    · iexists _; isplitr; · ipureintro; exact M.h11.read_unread _
      iexact HS
    iexists _; iexact HD

end Cert.KernelIdeal.Body

end
-- ==== Proof.KI.BodyLast.lean ====
import proofs.«139723_j51213190037828_1_alg».proof.Proof.KI.BodyMid

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- k = 3: the last block's share is added to both accumulators, then the normalised, rectified sum is stored as the output block. -/
noncomputable def runLast (c : Dev nD) (i : grid0.Coords) (M : Mem) (X : Ins F) (hc0 : ¬condFirst i) (hc1 : condLast i)
    (xa : Vec F S2048x256 .f32) (xs : Vec F S2048x256 .f32) (xd : Vec F S2048x1 .f32) :
    Σ' (LO : List (View.Piece (Elt F) S1x2048x256 .f32)), Σ' (LA : List (View.Piece (Elt F) S2048x256 .f32)), { LD : List (View.Piece (Elt F) S2048x1 .f32) //
      ∀ (E : Set ℕ) (K : PUnit → sProp 𝕄),
        insAnd c M X iprop((∃ d, owns (c : Thread nD τ) M.a9 fullShare d) ∗ owns (c : Thread nD τ) M.a10 fullShare xa ∗ owns (c : Thread nD τ) M.a11 fullShare xs ∗ owns (c : Thread nD τ) M.a12 fullShare xd
            ∗ (insAnd c M X iprop(written c M.a9 LO ∗ written c M.a10 LA ∗ owns (c : Thread nD τ) M.a11 fullShare xs ∗ written c M.a12 LD) -∗ K ⟨⟩))
          ⊢ wp frame (wpE (defs₀ (F := F)) Variants.none c none) E (kbody (F := F) i M) K } := by
  refine ⟨?_, ?_, ?_, fun E K => ?run⟩
  case run =>
    simp only [kbody, cc0__gcn_layer_kernel_eq_skeleton]; unfold cc0__gcn_layer_kernel_skel
    unfold insAnd written owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fa, %hfa, HA⟩, ⟨%fs, %hfs, HS⟩, ⟨%fd, %hfd, HD⟩, Hk⟩
    obtain rfl := M.h2.eq_unread hf0; obtain rfl := M.h3.eq_unread hf1; obtain rfl := M.h4.eq_unread hf2; obtain rfl := M.h5.eq_unread hf3; obtain rfl := M.h6.eq_unread hf4; obtain rfl := M.h7.eq_unread hf5; obtain rfl := M.h8.eq_unread hf6; obtain rfl := M.h10.eq_unread hfa; obtain rfl := M.h11.eq_unread hfs; obtain rfl := M.h12.eq_unread hfd
    sl_exec (disch := first | exact hc0 | exact hc1)
    sl_step
    iapply Hk
    isplitl [H0]
    · iexists _; isplitr; · ipureintro; exact M.h2.read_unread _
      iexact H0
    isplitl [H1]
    · iexists _; isplitr; · ipureintro; exact M.h3.read_unread _
      iexact H1
    isplitl [H2]
    · iexists _; isplitr; · ipureintro; exact M.h4.read_unread _
      iexact H2
    isplitl [H3]
    · iexists _; isplitr; · ipureintro; exact M.h5.read_unread _
      iexact H3
    isplitl [H4]
    · iexists _; isplitr; · ipureintro; exact M.h6.read_unread _
      iexact H4
    isplitl [H5]
    · iexists _; isplitr; · ipureintro; exact M.h7.read_unread _
      iexact H5
    isplitl [H6]
    · iexists _; isplitr; · ipureintro; exact M.h8.read_unread _
      iexact H6
    isplitl [H7]; · iexists _; iexact H7
    isplitl [HA]; · iexists _; iexact HA
    isplitl [HS]
    · iexists _; isplitr; · ipureintro; exact M.h11.read_unread _
      iexact HS
    iexists _; iexact HD

end Cert.KernelIdeal.Body

end
-- ==== Proof.KI.BodyPieces.lean ====
import proofs.«139723_j51213190037828_1_alg».proof.Proof.KI.BodyLast
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (M : Mem) (X : Ins F)

/-! What each case's run leaves in the buffers it writes, and that its pieces cover them. -/
def accFirst (hc0 : condFirst i) (hc1 : ¬condLast i) : Vec F S2048x256 .f32 := found M.a10 (runFirst c i M X hc0 hc1).1
theorem cover_accFirst (hc0 : condFirst i) (hc1 : ¬condLast i) (y : S2048x256.Idx) : ∃ pc ∈ (runFirst c i M X hc0 hc1).1, y ∈ pc.1.set :=
  View.cover_of_tiledL (runFirst c i M X hc0 hc1).1 S2048x256.size (by sl_kernel_rfl) y
def selfFirst (hc0 : condFirst i) (hc1 : ¬condLast i) : Vec F S2048x256 .f32 := found M.a11 (runFirst c i M X hc0 hc1).2.1
theorem cover_selfFirst (hc0 : condFirst i) (hc1 : ¬condLast i) (y : S2048x256.Idx) : ∃ pc ∈ (runFirst c i M X hc0 hc1).2.1, y ∈ pc.1.set :=
  View.cover_of_tiledL (runFirst c i M X hc0 hc1).2.1 S2048x256.size (by sl_kernel_rfl) y
def denFirst (hc0 : condFirst i) (hc1 : ¬condLast i) : Vec F S2048x1 .f32 := found M.a12 (runFirst c i M X hc0 hc1).2.2.1
theorem cover_denFirst (hc0 : condFirst i) (hc1 : ¬condLast i) (y : S2048x1.Idx) : ∃ pc ∈ (runFirst c i M X hc0 hc1).2.2.1, y ∈ pc.1.set :=
  View.cover_of_tiledL (runFirst c i M X hc0 hc1).2.2.1 S2048x1.size (by sl_kernel_rfl) y
def accMid (hc0 : ¬condFirst i) (hc1 : ¬condLast i) (xa : Vec F S2048x256 .f32) (xd : Vec F S2048x1 .f32) : Vec F S2048x256 .f32 := found M.a10 (runMid c i M X hc0 hc1 xa xd).1
theorem cover_accMid (hc0 : ¬condFirst i) (hc1 : ¬condLast i) (xa : Vec F S2048x256 .f32) (xd : Vec F S2048x1 .f32) (y : S2048x256.Idx) : ∃ pc ∈ (runMid c i M X hc0 hc1 xa xd).1, y ∈ pc.1.set :=
  View.cover_of_tiledL (runMid c i M X hc0 hc1 xa xd).1 S2048x256.size (by sl_kernel_rfl) y
def denMid (hc0 : ¬condFirst i) (hc1 : ¬condLast i) (xa : Vec F S2048x256 .f32) (xd : Vec F S2048x1 .f32) : Vec F S2048x1 .f32 := found M.a12 (runMid c i M X hc0 hc1 xa xd).2.1
theorem cover_denMid (hc0 : ¬condFirst i) (hc1 : ¬condLast i) (xa : Vec F S2048x256 .f32) (xd : Vec F S2048x1 .f32) (y : S2048x1.Idx) : ∃ pc ∈ (runMid c i M X hc0 hc1 xa xd).2.1, y ∈ pc.1.set :=
  View.cover_of_tiledL (runMid c i M X hc0 hc1 xa xd).2.1 S2048x1.size (by sl_kernel_rfl) y
def outLast (hc0 : ¬condFirst i) (hc1 : condLast i) (xa : Vec F S2048x256 .f32) (xs : Vec F S2048x256 .f32) (xd : Vec F S2048x1 .f32) : Vec F S1x2048x256 .f32 := found M.a9 (runLast c i M X hc0 hc1 xa xs xd).1
theorem cover_outLast (hc0 : ¬condFirst i) (hc1 : condLast i) (xa : Vec F S2048x256 .f32) (xs : Vec F S2048x256 .f32) (xd : Vec F S2048x1 .f32) (y : S1x2048x256.Idx) : ∃ pc ∈ (runLast c i M X hc0 hc1 xa xs xd).1, y ∈ pc.1.set :=
  View.cover_of_tiledL (runLast c i M X hc0 hc1 xa xs xd).1 S1x2048x256.size (by sl_kernel_rfl) y
def accLast (hc0 : ¬condFirst i) (hc1 : condLast i) (xa : Vec F S2048x256 .f32) (xs : Vec F S2048x256 .f32) (xd : Vec F S2048x1 .f32) : Vec F S2048x256 .f32 := found M.a10 (runLast c i M X hc0 hc1 xa xs xd).2.1
theorem cover_accLast (hc0 : ¬condFirst i) (hc1 : condLast i) (xa : Vec F S2048x256 .f32) (xs : Vec F S2048x256 .f32) (xd : Vec F S2048x1 .f32) (y : S2048x256.Idx) : ∃ pc ∈ (runLast c i M X hc0 hc1 xa xs xd).2.1, y ∈ pc.1.set :=
  View.cover_of_tiledL (runLast c i M X hc0 hc1 xa xs xd).2.1 S2048x256.size (by sl_kernel_rfl) y
def denLast (hc0 : ¬condFirst i) (hc1 : condLast i) (xa : Vec F S2048x256 .f32) (xs : Vec F S2048x256 .f32) (xd : Vec F S2048x1 .f32) : Vec F S2048x1 .f32 := found M.a12 (runLast c i M X hc0 hc1 xa xs xd).2.2.1
theorem cover_denLast (hc0 : ¬condFirst i) (hc1 : condLast i) (xa : Vec F S2048x256 .f32) (xs : Vec F S2048x256 .f32) (xd : Vec F S2048x1 .f32) (y : S2048x1.Idx) : ∃ pc ∈ (runLast c i M X hc0 hc1 xa xs xd).2.2.1, y ∈ pc.1.set :=
  View.cover_of_tiledL (runLast c i M X hc0 hc1 xa xs xd).2.2.1 S2048x1.size (by sl_kernel_rfl) y

/-! Every store covers its whole buffer, so a buffer ends with the last value stored, and a value loaded back after a
    store in the same point is that stored value. -/
set_option maxHeartbeats 2000000 in
theorem accFirst_eq (hc0 : condFirst i) (hc1 : ¬condLast i) :
    accFirst c i M X hc0 hc1 = k0_pay6 X.x2 X.x0 X.x3 X.x4 (k0_pay2 (F := F)) := by
  unfold accFirst found
  rw [View.read_writes_eq_canon _ _ _ (cover_accFirst c i M X hc0 hc1)]
  unfold runFirst
  dsimp only
  sl_unfold_words
  rw [View.canon_cons_unit_zero (S := S2048x256) hz2]
  simp only [View.readAt_eq_ld, M.h2.read_unread, M.h3.read_unread, M.h4.read_unread, M.h5.read_unread, M.h6.read_unread, M.h7.read_unread, M.h8.read_unread, M.h10.read_unread, M.h11.read_unread, M.h12.read_unread,
    View.readCov_unit_zero (S := S2048x256) _ hz2, View.readCov_unit_zero (S := S2048x1) _ hz2,
    View.ld_unit_zero (S := S1x512x256) hz3, View.ld_unit_zero (S := S1x2048x256) hz3, View.ld_unit_zero (S := S1x2048x512) hz3,
    View.ld_unit_zero (S := S256x256) hz2, View.ld_unit_zero (S := S1x256) hz2, View.ld_unit_zero (S := S2048x256) hz2, View.ld_unit_zero (S := S2048x1) hz2]
set_option maxHeartbeats 2000000 in
theorem selfFirst_eq (hc0 : condFirst i) (hc1 : ¬condLast i) :
    selfFirst c i M X hc0 hc1 = k0_pay4 X.x1 X.x5 X.x6 := by
  unfold selfFirst found
  rw [View.read_writes_eq_canon _ _ _ (cover_selfFirst c i M X hc0 hc1)]
  unfold runFirst
  dsimp only
  sl_unfold_words
  rw [View.canon_unit_zero (S := S2048x256) hz2]
  simp only [View.readAt_eq_ld, M.h2.read_unread, M.h3.read_unread, M.h4.read_unread, M.h5.read_unread, M.h6.read_unread, M.h7.read_unread, M.h8.read_unread, M.h10.read_unread, M.h11.read_unread, M.h12.read_unread,
    View.readCov_unit_zero (S := S2048x256) _ hz2, View.readCov_unit_zero (S := S2048x1) _ hz2,
    View.ld_unit_zero (S := S1x512x256) hz3, View.ld_unit_zero (S := S1x2048x256) hz3, View.ld_unit_zero (S := S1x2048x512) hz3,
    View.ld_unit_zero (S := S256x256) hz2, View.ld_unit_zero (S := S1x256) hz2, View.ld_unit_zero (S := S2048x256) hz2, View.ld_unit_zero (S := S2048x1) hz2]
set_option maxHeartbeats 2000000 in
theorem denFirst_eq (hc0 : condFirst i) (hc1 : ¬condLast i) :
    denFirst c i M X hc0 hc1 = k0_pay7 X.x2 (k0_pay3 (F := F)) := by
  unfold denFirst found
  rw [View.read_writes_eq_canon _ _ _ (cover_denFirst c i M X hc0 hc1)]
  unfold runFirst
  dsimp only
  sl_unfold_words
  rw [View.canon_cons_unit_zero (S := S2048x1) hz2]
  simp only [View.readAt_eq_ld, M.h2.read_unread, M.h3.read_unread, M.h4.read_unread, M.h5.read_unread, M.h6.read_unread, M.h7.read_unread, M.h8.read_unread, M.h10.read_unread, M.h11.read_unread, M.h12.read_unread,
    View.readCov_unit_zero (S := S2048x256) _ hz2, View.readCov_unit_zero (S := S2048x1) _ hz2,
    View.ld_unit_zero (S := S1x512x256) hz3, View.ld_unit_zero (S := S1x2048x256) hz3, View.ld_unit_zero (S := S1x2048x512) hz3,
    View.ld_unit_zero (S := S256x256) hz2, View.ld_unit_zero (S := S1x256) hz2, View.ld_unit_zero (S := S2048x256) hz2, View.ld_unit_zero (S := S2048x1) hz2]
set_option maxHeartbeats 2000000 in
theorem accMid_eq (hc0 : ¬condFirst i) (hc1 : ¬condLast i) (xa : Vec F S2048x256 .f32) (xd : Vec F S2048x1 .f32) :
    accMid c i M X hc0 hc1 xa xd = k0_pay6 X.x2 X.x0 X.x3 X.x4 xa := by
  unfold accMid found
  rw [View.read_writes_eq_canon _ _ _ (cover_accMid c i M X hc0 hc1 xa xd)]
  unfold runMid
  dsimp only
  sl_unfold_words
  rw [View.canon_unit_zero (S := S2048x256) hz2]
  simp only [View.readAt_eq_ld, M.h2.read_unread, M.h3.read_unread, M.h4.read_unread, M.h5.read_unread, M.h6.read_unread, M.h7.read_unread, M.h8.read_unread, M.h10.read_unread, M.h11.read_unread, M.h12.read_unread,
    View.readCov_unit_zero (S := S2048x256) _ hz2, View.readCov_unit_zero (S := S2048x1) _ hz2,
    View.ld_unit_zero (S := S1x512x256) hz3, View.ld_unit_zero (S := S1x2048x256) hz3, View.ld_unit_zero (S := S1x2048x512) hz3,
    View.ld_unit_zero (S := S256x256) hz2, View.ld_unit_zero (S := S1x256) hz2, View.ld_unit_zero (S := S2048x256) hz2, View.ld_unit_zero (S := S2048x1) hz2]
set_option maxHeartbeats 2000000 in
theorem denMid_eq (hc0 : ¬condFirst i) (hc1 : ¬condLast i) (xa : Vec F S2048x256 .f32) (xd : Vec F S2048x1 .f32) :
    denMid c i M X hc0 hc1 xa xd = k0_pay7 X.x2 xd := by
  unfold denMid found
  rw [View.read_writes_eq_canon _ _ _ (cover_denMid c i M X hc0 hc1 xa xd)]
  unfold runMid
  dsimp only
  sl_unfold_words
  rw [View.canon_unit_zero (S := S2048x1) hz2]
  simp only [View.readAt_eq_ld, M.h2.read_unread, M.h3.read_unread, M.h4.read_unread, M.h5.read_unread, M.h6.read_unread, M.h7.read_unread, M.h8.read_unread, M.h10.read_unread, M.h11.read_unread, M.h12.read_unread,
    View.readCov_unit_zero (S := S2048x256) _ hz2, View.readCov_unit_zero (S := S2048x1) _ hz2,
    View.ld_unit_zero (S := S1x512x256) hz3, View.ld_unit_zero (S := S1x2048x256) hz3, View.ld_unit_zero (S := S1x2048x512) hz3,
    View.ld_unit_zero (S := S256x256) hz2, View.ld_unit_zero (S := S1x256) hz2, View.ld_unit_zero (S := S2048x256) hz2, View.ld_unit_zero (S := S2048x1) hz2]
set_option maxHeartbeats 2000000 in
theorem outLast_eq (hc0 : ¬condFirst i) (hc1 : condLast i) (xa : Vec F S2048x256 .f32) (xs : Vec F S2048x256 .f32) (xd : Vec F S2048x1 .f32) :
    outLast c i M X hc0 hc1 xa xs xd = k0_pay1 (k0_pay7 X.x2 xd) (k0_pay6 X.x2 X.x0 X.x3 X.x4 xa) xs := by
  unfold outLast found
  rw [View.read_writes_eq_canon _ _ _ (cover_outLast c i M X hc0 hc1 xa xs xd)]
  unfold runLast
  dsimp only
  sl_unfold_words
  rw [View.canon_unit_zero (S := S1x2048x256) hz3]
  simp only [View.readAt_eq_ld, M.h2.read_unread, M.h3.read_unread, M.h4.read_unread, M.h5.read_unread, M.h6.read_unread, M.h7.read_unread, M.h8.read_unread, M.h10.read_unread, M.h11.read_unread, M.h12.read_unread,
    View.readCov_unit_zero (S := S2048x256) _ hz2, View.readCov_unit_zero (S := S2048x1) _ hz2,
    View.ld_unit_zero (S := S1x512x256) hz3, View.ld_unit_zero (S := S1x2048x256) hz3, View.ld_unit_zero (S := S1x2048x512) hz3,
    View.ld_unit_zero (S := S256x256) hz2, View.ld_unit_zero (S := S1x256) hz2, View.ld_unit_zero (S := S2048x256) hz2, View.ld_unit_zero (S := S2048x1) hz2]
set_option maxHeartbeats 2000000 in
theorem accLast_eq (hc0 : ¬condFirst i) (hc1 : condLast i) (xa : Vec F S2048x256 .f32) (xs : Vec F S2048x256 .f32) (xd : Vec F S2048x1 .f32) :
    accLast c i M X hc0 hc1 xa xs xd = k0_pay6 X.x2 X.x0 X.x3 X.x4 xa := by
  unfold accLast found
  rw [View.read_writes_eq_canon _ _ _ (cover_accLast c i M X hc0 hc1 xa xs xd)]
  unfold runLast
  dsimp only
  sl_unfold_words
  rw [View.canon_unit_zero (S := S2048x256) hz2]
  simp only [View.readAt_eq_ld, M.h2.read_unread, M.h3.read_unread, M.h4.read_unread, M.h5.read_unread, M.h6.read_unread, M.h7.read_unread, M.h8.read_unread, M.h10.read_unread, M.h11.read_unread, M.h12.read_unread,
    View.readCov_unit_zero (S := S2048x256) _ hz2, View.readCov_unit_zero (S := S2048x1) _ hz2,
    View.ld_unit_zero (S := S1x512x256) hz3, View.ld_unit_zero (S := S1x2048x256) hz3, View.ld_unit_zero (S := S1x2048x512) hz3,
    View.ld_unit_zero (S := S256x256) hz2, View.ld_unit_zero (S := S1x256) hz2, View.ld_unit_zero (S := S2048x256) hz2, View.ld_unit_zero (S := S2048x1) hz2]
set_option maxHeartbeats 2000000 in
theorem denLast_eq (hc0 : ¬condFirst i) (hc1 : condLast i) (xa : Vec F S2048x256 .f32) (xs : Vec F S2048x256 .f32) (xd : Vec F S2048x1 .f32) :
    denLast c i M X hc0 hc1 xa xs xd = k0_pay7 X.x2 xd := by
  unfold denLast found
  rw [View.read_writes_eq_canon _ _ _ (cover_denLast c i M X hc0 hc1 xa xs xd)]
  unfold runLast
  dsimp only
  sl_unfold_words
  rw [View.canon_unit_zero (S := S2048x1) hz2]
  simp only [View.readAt_eq_ld, M.h2.read_unread, M.h3.read_unread, M.h4.read_unread, M.h5.read_unread, M.h6.read_unread, M.h7.read_unread, M.h8.read_unread, M.h10.read_unread, M.h11.read_unread, M.h12.read_unread,
    View.readCov_unit_zero (S := S2048x256) _ hz2, View.readCov_unit_zero (S := S2048x1) _ hz2,
    View.ld_unit_zero (S := S1x512x256) hz3, View.ld_unit_zero (S := S1x2048x256) hz3, View.ld_unit_zero (S := S1x2048x512) hz3,
    View.ld_unit_zero (S := S256x256) hz2, View.ld_unit_zero (S := S1x256) hz2, View.ld_unit_zero (S := S2048x256) hz2, View.ld_unit_zero (S := S2048x1) hz2]

end Cert.KernelIdeal.Body

end
-- ==== Proof.KI.R0Dat.lean ====
import proofs.«139723_j51213190037828_1_alg».proof.Proof.KI.R0Base
import proofs.«139723_j51213190037828_1_alg».proof.Proof.KI.BodyPieces

set_option maxRecDepth 16384

noncomputable section

namespace Cert.KernelIdeal.R0

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem PhiA_eq' (c : Dev nD) :
    (Pipeline.ΦA spec0 c : sProp 𝕄)
      = iprop(iprop(iprop((∃ d, owns (c : Thread nD τ) scAcc fullShare d) ∗ (∃ d, owns (c : Thread nD τ) scSelf fullShare d) ∗ (∃ d, owns (c : Thread nD τ) scDen fullShare d)) ∗ otherRest c)
        ∗ (∃ r, prngReg c r)) := by
  unfold Pipeline.ΦA; rw [scopedRest_eq']; simp only [scAcc, scSelf, scDen, owns_whole]; try rfl

theorem first_of (t : Fin cfg0.N) (h0 : t.val % 4 = 0) : condFirst (grid0.coords t) := (hcondFirst t).mpr h0
theorem notFirst_of (t : Fin cfg0.N) (h0 : ¬t.val % 4 = 0) : ¬condFirst (grid0.coords t) := fun h => h0 ((hcondFirst t).mp h)
theorem last_of (t : Fin cfg0.N) (h1 : t.val % 4 = 3) : condLast (grid0.coords t) := (hcondLast t).mpr h1
theorem notLast_of (t : Fin cfg0.N) (h1 : ¬t.val % 4 = 3) : ¬condLast (grid0.coords t) := fun h => h1 ((hcondLast t).mp h)
theorem notLast_of_first (t : Fin cfg0.N) (h0 : t.val % 4 = 0) : ¬condLast (grid0.coords t) := fun h => by
  have := (hcondLast t).mp h; omega

/-- The memrefs and the input blocks of point `t`. -/
abbrev mem (t : Fin cfg0.N) : Mem := ⟨ms_0 t, hs_0 t, ms_1 t, hs_1 t, ms_2 t, hs_2 t, ms_3 t, hs_3 t, ms_4 t, hs_4 t, ms_5 t, hs_5 t, ms_6 t, hs_6 t, ms_7 t, hs_7 t, scAcc, Memref.isWhole_whole _, scSelf, Memref.isWhole_whole _, scDen, Memref.isWhole_whole _⟩
abbrev ins (c : Dev nD) (t : Fin cfg0.N) : Ins F := ⟨iblk V c 0 t, iblk V c 1 t, iblk V c 2 t, iblk V c 3 t, iblk V c 4 t, iblk V c 5 t, iblk V c 6 t⟩

/-- After a point: the output's buffer, the neighbour sum, the self term, the row sum. -/
abbrev St (F : FTy → Type) [FloatOps F] := Vec F S1x2048x256 .f32 × Vec F S2048x256 .f32 × Vec F S2048x256 .f32 × Vec F S2048x1 .f32

abbrev noOut : Vec F S1x2048x256 .f32 := VOut.read (Elt F) (VOut.writes (Elt F) VOut.junk [])

/-- k = 0 starts the three scratch values afresh. -/
def firstAt (c : Dev nD) (t : Fin cfg0.N) (h0 : t.val % 4 = 0) : St F :=
  (noOut, accFirst c (grid0.coords t) (mem t) (ins V c t) (first_of t h0) (notLast_of_first t h0), selfFirst c (grid0.coords t) (mem t) (ins V c t) (first_of t h0) (notLast_of_first t h0),
    denFirst c (grid0.coords t) (mem t) (ins V c t) (first_of t h0) (notLast_of_first t h0))
/-- k = 1, 2 goes on from what the point before left; the self term stays. -/
def midAt (c : Dev nD) (t : Fin cfg0.N) (h0 : ¬t.val % 4 = 0) (h1 : ¬t.val % 4 = 3) (s : St F) : St F :=
  (noOut, accMid c (grid0.coords t) (mem t) (ins V c t) (notFirst_of t h0) (notLast_of t h1) s.2.1 s.2.2.2, s.2.2.1,
    denMid c (grid0.coords t) (mem t) (ins V c t) (notFirst_of t h0) (notLast_of t h1) s.2.1 s.2.2.2)
/-- k = 3 also finishes the output block. -/
def lastAt (c : Dev nD) (t : Fin cfg0.N) (h0 : ¬t.val % 4 = 0) (h1 : t.val % 4 = 3) (s : St F) : St F :=
  (outLast c (grid0.coords t) (mem t) (ins V c t) (notFirst_of t h0) (last_of t h1) s.2.1 s.2.2.1 s.2.2.2, accLast c (grid0.coords t) (mem t) (ins V c t) (notFirst_of t h0) (last_of t h1) s.2.1 s.2.2.1 s.2.2.2,
    s.2.2.1, denLast c (grid0.coords t) (mem t) (ins V c t) (notFirst_of t h0) (last_of t h1) s.2.1 s.2.2.1 s.2.2.2)

/-- The state after the point at position `n`, by recursion on the position. -/
def stAt (c : Dev nD) : (n : ℕ) → n < cfg0.N → St F
  | 0, hn => firstAt V c ⟨0, hn⟩ (Nat.zero_mod 4)
  | n + 1, hn =>
    if h0 : (n + 1) % 4 = 0 then firstAt V c ⟨n + 1, hn⟩ h0
    else if h1 : (n + 1) % 4 = 3 then lastAt V c ⟨n + 1, hn⟩ h0 h1 (stAt c n (Nat.lt_of_succ_lt hn))
    else midAt V c ⟨n + 1, hn⟩ h0 h1 (stAt c n (Nat.lt_of_succ_lt hn))

theorem stAt_first (c : Dev nD) (t : Fin cfg0.N) (h0 : t.val % 4 = 0) : stAt V c t.val t.isLt = firstAt V c t h0 := by
  obtain ⟨n, hn⟩ := t
  cases n with
  | zero => exact rfl
  | succ n => exact (dif_pos h0).trans rfl

theorem stAt_mid (c : Dev nD) (t : Fin cfg0.N) (h0 : ¬t.val % 4 = 0) (h1 : ¬t.val % 4 = 3) :
    stAt V c t.val t.isLt = midAt V c t h0 h1 (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem stAt_last (c : Dev nD) (t : Fin cfg0.N) (h0 : ¬t.val % 4 = 0) (h1 : t.val % 4 = 3) :
    stAt V c t.val t.isLt = lastAt V c t h0 h1 (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The scratch buffers at a state's values, the untouched scoped buffers, the generator register. -/
def held (c : Dev nD) (s : St F) : sProp 𝕄 :=
  iprop(iprop(iprop(owns (c : Thread nD τ) scAcc fullShare s.2.1 ∗ owns (c : Thread nD τ) scSelf fullShare s.2.2.1 ∗ owns (c : Thread nD τ) scDen fullShare s.2.2.2) ∗ otherRest c) ∗ (∃ r, prngReg c r))

/-- The invariant before position `n`: the plain one at first, then the scratch buffers at what the point before left. -/
def PhiS (c : Dev nD) : (n : ℕ) → n ≤ cfg0.N → sProp 𝕄
  | 0, _ => Pipeline.ΦA spec0 c
  | n + 1, hn => held c (stAt V c n hn)

theorem PhiS_pos (c : Dev nD) (n : ℕ) (h : n ≤ cfg0.N) (hz : n ≠ 0) : PhiS V c n h = held c (stAt V c (n - 1) (by omega)) := by
  cases n with
  | zero => exact absurd rfl hz
  | succ n => rfl

/-- Forgetting the scratch contents gives the plain invariant back. -/
theorem PhiS_weak (c : Dev nD) (n : ℕ) (h : n ≤ cfg0.N) : PhiS V c n h ⊢ Pipeline.ΦA spec0 c := by
  cases n with
  | zero => exact .rfl
  | succ n =>
    rw [PhiA_eq']; show held c _ ⊢ _; unfold held
    iintro ⟨⟨⟨HA, HS, HD⟩, HR⟩, Hg⟩
    isplitl [HA HS HD HR]
    · isplitl [HA HS HD]
      · isplitl [HA]; · iexists _; iexact HA
        isplitl [HS]; · iexists _; iexact HS
        iexists _; iexact HD
      iexact HR
    iexact Hg

/-- The region's proof data: the arrays as found; each input's buffer keeps its block, the output's holds `stAt`'s
    first component; the features' array is held half and half by its two windows. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (stAt V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = (stAt V c t.val t.isLt).1 := by dsimp only [dat]
theorem before_0 (c : Dev nD) (t : Fin cfg0.N) (d) : (dat V c).before 0 t d = iblk V c 0 t :=
  ((dat V c).before_in_eq_fetched 0 rfl (fun _ => rfl) (fun _ _ _ => rfl) (fun _ => rfl) t d).trans rfl
theorem before_1 (c : Dev nD) (t : Fin cfg0.N) (d) : (dat V c).before 1 t d = iblk V c 1 t :=
  ((dat V c).before_in_eq_fetched 1 rfl (fun _ => rfl) (fun _ _ _ => rfl) (fun _ => rfl) t d).trans rfl
theorem before_2 (c : Dev nD) (t : Fin cfg0.N) (d) : (dat V c).before 2 t d = iblk V c 2 t :=
  ((dat V c).before_in_eq_fetched 2 rfl (fun _ => rfl) (fun _ _ _ => rfl) (fun _ => rfl) t d).trans rfl
theorem before_3 (c : Dev nD) (t : Fin cfg0.N) (d) : (dat V c).before 3 t d = iblk V c 3 t :=
  ((dat V c).before_in_eq_fetched 3 rfl (fun _ => rfl) (fun _ _ _ => rfl) (fun _ => rfl) t d).trans rfl
theorem before_4 (c : Dev nD) (t : Fin cfg0.N) (d) : (dat V c).before 4 t d = iblk V c 4 t :=
  ((dat V c).before_in_eq_fetched 4 rfl (fun _ => rfl) (fun _ _ _ => rfl) (fun _ => rfl) t d).trans rfl
theorem before_5 (c : Dev nD) (t : Fin cfg0.N) (d) : (dat V c).before 5 t d = iblk V c 5 t :=
  ((dat V c).before_in_eq_fetched 5 rfl (fun _ => rfl) (fun _ _ _ => rfl) (fun _ => rfl) t d).trans rfl
theorem before_6 (c : Dev nD) (t : Fin cfg0.N) (d) : (dat V c).before 6 t d = iblk V c 6 t :=
  ((dat V c).before_in_eq_fetched 6 rfl (fun _ => rfl) (fun _ _ _ => rfl) (fun _ => rfl) t d).trans rfl

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t ∗ (dat V c).leavesExact 5 t ∗ (dat V c).leavesExact 6 t ∗ (dat V c).leavesExact 7 t)

set_option maxHeartbeats 8000000 in
/-- The body at any point: its position says which of the three cases it is; the invariant hands the scratch buffers
    over at what the point before left and takes them back at this point's values. -/
theorem sound_body (c : Dev nD) (t : Fin cfg0.N) :
    bodyPre V c t ⊢ wp frame (wpE (defs₀ (F := F)) Variants.none c none) Set.univ (bodyAt0 t) (fun _ => bodyPost V c t) := by
  unfold bodyPre bodyPost
  rw [show bodyAt0 t = kbody (F := F) (grid0.coords t) (mem t) from rfl]
  simp only [before_0, before_1, before_2, before_3, before_4, before_5, before_6]
  rw [show (dat V c).owesAt () t.succ = (dat V c).owesAt () t.castSucc from rfl]
  rw [show (dat V c).Φ t.succ = held c (stAt V c t.val t.isLt) from rfl, PhiS_castSucc V c t]
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  rw [show (dat V c).leavesExact 3 t = owns (c : Thread nD τ) (ms_3 t) fullShare ((dat V c).after 3 t) from by
    unfold Dat.leavesExact; rw [live_3 t], after_3]
  rw [show (dat V c).leavesExact 4 t = owns (c : Thread nD τ) (ms_4 t) fullShare ((dat V c).after 4 t) from by
    unfold Dat.leavesExact; rw [live_4 t], after_4]
  rw [show (dat V c).leavesExact 5 t = owns (c : Thread nD τ) (ms_5 t) fullShare ((dat V c).after 5 t) from by
    unfold Dat.leavesExact; rw [live_5 t], after_5]
  rw [show (dat V c).leavesExact 6 t = owns (c : Thread nD τ) (ms_6 t) fullShare ((dat V c).after 6 t) from by
    unfold Dat.leavesExact; rw [live_6 t], after_6]
  by_cases h0 : t.val % 4 = 0
  · rw [Dat.leavesExact_idle (dat V c) 7 t (idle_7 t (notLast_of_first t h0)) (noFlush_7 t (notLast_of_first t h0))]
    rw [stAt_first V c t h0]
    refine BIBase.Entails.trans (sep_mono (PhiS_weak V c _ _) .rfl) ?_
    rw [PhiA_eq']
    unfold held firstAt
    dsimp only
    unfold accFirst selfFirst denFirst
    iintro ⟨⟨⟨⟨HA, HS, HD⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t) (mem t) (ins V c t) (first_of t h0) (notLast_of_first t h0)).2.2.2 _ Set.univ _)
    unfold insAnd
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]; · iexact HA
    isplitl [HS]; · iexact HS
    isplitl [HD]; · iexact HD
    iintro ⟨H0, H1, H2, H3, H4, H5, H6, H7, HA, HS, HD⟩
    isplitl [HA HS HD HR Hg]
    · isplitl [HA HS HD HR]
      · isplitl [HA HS HD]
        · isplitl [HA]; · iapply (owns_found c _ _ _ (cover_accFirst c _ _ _ _ _)); iexact HA
          isplitl [HS]; · iapply (owns_found c _ _ _ (cover_selfFirst c _ _ _ _ _)); iexact HS
          iapply (owns_found c _ _ _ (cover_denFirst c _ _ _ _ _)); iexact HD
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hz : t.val ≠ 0 := fun e => h0 (by rw [e])
    rw [PhiS_pos V c _ _ hz]
    by_cases h1 : t.val % 4 = 3
    · rw [show (dat V c).leavesExact 7 t = owns (c : Thread nD τ) (ms_7 t) fullShare ((dat V c).after 7 t) from by
        unfold Dat.leavesExact; rw [live_7 t (last_of t h1)], after_7]
      rw [stAt_last V c t h0 h1]
      unfold held lastAt
      dsimp only
      unfold outLast accLast denLast
      iintro ⟨⟨⟨⟨HA, HS, HD⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid0.coords t) (mem t) (ins V c t) (notFirst_of t h0) (last_of t h1) _ _ _).2.2.2 Set.univ _)
      unfold insAnd
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HA]; · iexact HA
      isplitl [HS]; · iexact HS
      isplitl [HD]; · iexact HD
      iintro ⟨H0, H1, H2, H3, H4, H5, H6, H7, HA, HS, HD⟩
      isplitl [HA HS HD HR Hg]
      · isplitl [HA HS HD HR]
        · isplitl [HA HS HD]
          · isplitl [HA]; · iapply (owns_found c _ _ _ (cover_accLast c _ _ _ _ _ _ _ _)); iexact HA
            isplitl [HS]; · iexact HS
            iapply (owns_found c _ _ _ (cover_denLast c _ _ _ _ _ _ _ _)); iexact HD
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (owns_found c _ _ _ (cover_outLast c _ _ _ _ _ _ _ _)); iexact H7
    · rw [Dat.leavesExact_idle (dat V c) 7 t (idle_7 t (notLast_of t h1)) (noFlush_7 t (notLast_of t h1))]
      rw [stAt_mid V c t h0 h1]
      unfold held midAt
      dsimp only
      unfold accMid denMid
      iintro ⟨⟨⟨⟨HA, HS, HD⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid0.coords t) (mem t) (ins V c t) (notFirst_of t h0) (notLast_of t h1) _ _).2.2 _ _ Set.univ _)
      unfold insAnd
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HA]; · iexact HA
      isplitl [HS]; · iexact HS
      isplitl [HD]; · iexact HD
      iintro ⟨H0, H1, H2, H3, H4, H5, H6, H7, HA, HS, HD⟩
      isplitl [HA HS HD HR Hg]
      · isplitl [HA HS HD HR]
        · isplitl [HA HS HD]
          · isplitl [HA]; · iapply (owns_found c _ _ _ (cover_accMid c _ _ _ _ _ _ _)); iexact HA
            isplitl [HS]; · iexact HS
            iapply (owns_found c _ _ _ (cover_denMid c _ _ _ _ _ _ _)); iexact HD
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := .rfl

theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl]
  exact PhiS_weak V c _ _

end Cert.KernelIdeal.R0

end
-- ==== Proof.KI.R1Base.lean ====
import proofs.«139723_j51213190037828_1_alg».proof.Proof.KI.Body

set_option maxRecDepth 16384

noncomputable section

namespace Cert.KernelIdeal.R1

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hcondFirst : ∀ t : Fin cfg1.N, condFirst (grid1.coords t) ↔ t.val % 4 = 0 :=
  (by decide +kernel : ∀ t : Fin grid1.N, condFirst (grid1.coords t) ↔ t.val % 4 = 0)

theorem hcondLast : ∀ t : Fin cfg1.N, condLast (grid1.coords t) ↔ t.val % 4 = 3 :=
  (by decide +kernel : ∀ t : Fin grid1.N, condLast (grid1.coords t) ↔ t.val % 4 = 3)

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
theorem live_4 : ∀ t : Fin cfg1.N, cfg1.idle 4 (grid1.coords t) = false := by decide +kernel
theorem live_5 : ∀ t : Fin cfg1.N, cfg1.idle 5 (grid1.coords t) = false := by decide +kernel
theorem live_6 : ∀ t : Fin cfg1.N, cfg1.idle 6 (grid1.coords t) = false := by decide +kernel

theorem idle_7 : ∀ t : Fin cfg1.N, ¬condLast (grid1.coords t) → cfg1.idle 7 (grid1.coords t) = true := by decide +kernel
theorem noFlush_7 : ∀ t : Fin cfg1.N, ¬condLast (grid1.coords t) → (cfg1.win 7).flush t = false := by decide +kernel

theorem live_7 : ∀ t : Fin cfg1.N, condLast (grid1.coords t) → cfg1.idle 7 (grid1.coords t) = false := by decide +kernel

abbrev ms_0 (t : Fin cfg1.N) : Memref sig .tc .vmem S1x512x256 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x2048x256 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x2048x512 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S256x256 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1x256 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S256x256 .f32 := win1_5.stage (cfg1.slots t 5)
abbrev hs_5 (t : Fin cfg1.N) : (ms_5 t).IsWhole := hstage1_5 ((cfg1.slots t 5).cast nbuf1_5)
abbrev ms_6 (t : Fin cfg1.N) : Memref sig .tc .vmem S1x256 .f32 := win1_6.stage (cfg1.slots t 6)
abbrev hs_6 (t : Fin cfg1.N) : (ms_6 t).IsWhole := hstage1_6 ((cfg1.slots t 6).cast nbuf1_6)
abbrev ms_7 (t : Fin cfg1.N) : Memref sig .tc .vmem S1x2048x256 .f32 := win1_7.stage (cfg1.slots t 7)
abbrev hs_7 (t : Fin cfg1.N) : (ms_7 t).IsWhole := hstage1_7 ((cfg1.slots t 7).cast nbuf1_7)

abbrev scAcc : Memref sig .tc .vmem S2048x256 .f32 := Memref.whole cc1_scratch0
abbrev scSelf : Memref sig .tc .vmem S2048x256 .f32 := Memref.whole cc1_scratch1
abbrev scDen : Memref sig .tc .vmem S2048x1 .f32 := Memref.whole cc1_scratch2

abbrev VOut : View sig .tc .vmem S1x2048x256 .f32 := (Memref.whole cc1_stg7_0 : Memref sig .tc .vmem S1x2048x256 .f32).view

/-- The scoped buffers other than the kernel's three scratch buffers and this region's window buffers, each at some contents. -/
abbrev otherRest (c : Dev nD) : sProp 𝕄 :=
  Pipeline.scopedRestBut (Ix := Unit) (Name := ℕ) (U := UR sig nD τ) (Lvl := ℕ) (Val := Elt F) spec1 c [cc1_scratch0, cc1_scratch1, cc1_scratch2]

theorem scopedRest_eq' (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ otherRest c) :=
  Pipeline.scopedRest_split_of_list spec1 c [cc1_scratch0, cc1_scratch1, cc1_scratch2] (by decide) (by decide)

end Cert.KernelIdeal.R1

end
-- ==== Proof.KI.R1Dat.lean ====
import proofs.«139723_j51213190037828_1_alg».proof.Proof.KI.R1Base
import proofs.«139723_j51213190037828_1_alg».proof.Proof.KI.BodyPieces

set_option maxRecDepth 16384

noncomputable section

namespace Cert.KernelIdeal.R1

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem PhiA_eq' (c : Dev nD) :
    (Pipeline.ΦA spec1 c : sProp 𝕄)
      = iprop(iprop(iprop((∃ d, owns (c : Thread nD τ) scAcc fullShare d) ∗ (∃ d, owns (c : Thread nD τ) scSelf fullShare d) ∗ (∃ d, owns (c : Thread nD τ) scDen fullShare d)) ∗ otherRest c)
        ∗ (∃ r, prngReg c r)) := by
  unfold Pipeline.ΦA; rw [scopedRest_eq']; simp only [scAcc, scSelf, scDen, owns_whole]; try rfl

theorem first_of (t : Fin cfg1.N) (h0 : t.val % 4 = 0) : condFirst (grid1.coords t) := (hcondFirst t).mpr h0
theorem notFirst_of (t : Fin cfg1.N) (h0 : ¬t.val % 4 = 0) : ¬condFirst (grid1.coords t) := fun h => h0 ((hcondFirst t).mp h)
theorem last_of (t : Fin cfg1.N) (h1 : t.val % 4 = 3) : condLast (grid1.coords t) := (hcondLast t).mpr h1
theorem notLast_of (t : Fin cfg1.N) (h1 : ¬t.val % 4 = 3) : ¬condLast (grid1.coords t) := fun h => h1 ((hcondLast t).mp h)
theorem notLast_of_first (t : Fin cfg1.N) (h0 : t.val % 4 = 0) : ¬condLast (grid1.coords t) := fun h => by
  have := (hcondLast t).mp h; omega

/-- The memrefs and the input blocks of point `t`. -/
abbrev mem (t : Fin cfg1.N) : Mem := ⟨ms_0 t, hs_0 t, ms_1 t, hs_1 t, ms_2 t, hs_2 t, ms_3 t, hs_3 t, ms_4 t, hs_4 t, ms_5 t, hs_5 t, ms_6 t, hs_6 t, ms_7 t, hs_7 t, scAcc, Memref.isWhole_whole _, scSelf, Memref.isWhole_whole _, scDen, Memref.isWhole_whole _⟩
abbrev ins (c : Dev nD) (t : Fin cfg1.N) : Ins F := ⟨iblk V c 0 t, iblk V c 1 t, iblk V c 2 t, iblk V c 3 t, iblk V c 4 t, iblk V c 5 t, iblk V c 6 t⟩

/-- After a point: the output's buffer, the neighbour sum, the self term, the row sum. -/
abbrev St (F : FTy → Type) [FloatOps F] := Vec F S1x2048x256 .f32 × Vec F S2048x256 .f32 × Vec F S2048x256 .f32 × Vec F S2048x1 .f32

abbrev noOut : Vec F S1x2048x256 .f32 := VOut.read (Elt F) (VOut.writes (Elt F) VOut.junk [])

/-- k = 0 starts the three scratch values afresh. -/
def firstAt (c : Dev nD) (t : Fin cfg1.N) (h0 : t.val % 4 = 0) : St F :=
  (noOut, accFirst c (grid1.coords t) (mem t) (ins V c t) (first_of t h0) (notLast_of_first t h0), selfFirst c (grid1.coords t) (mem t) (ins V c t) (first_of t h0) (notLast_of_first t h0),
    denFirst c (grid1.coords t) (mem t) (ins V c t) (first_of t h0) (notLast_of_first t h0))
/-- k = 1, 2 goes on from what the point before left; the self term stays. -/
def midAt (c : Dev nD) (t : Fin cfg1.N) (h0 : ¬t.val % 4 = 0) (h1 : ¬t.val % 4 = 3) (s : St F) : St F :=
  (noOut, accMid c (grid1.coords t) (mem t) (ins V c t) (notFirst_of t h0) (notLast_of t h1) s.2.1 s.2.2.2, s.2.2.1,
    denMid c (grid1.coords t) (mem t) (ins V c t) (notFirst_of t h0) (notLast_of t h1) s.2.1 s.2.2.2)
/-- k = 3 also finishes the output block. -/
def lastAt (c : Dev nD) (t : Fin cfg1.N) (h0 : ¬t.val % 4 = 0) (h1 : t.val % 4 = 3) (s : St F) : St F :=
  (outLast c (grid1.coords t) (mem t) (ins V c t) (notFirst_of t h0) (last_of t h1) s.2.1 s.2.2.1 s.2.2.2, accLast c (grid1.coords t) (mem t) (ins V c t) (notFirst_of t h0) (last_of t h1) s.2.1 s.2.2.1 s.2.2.2,
    s.2.2.1, denLast c (grid1.coords t) (mem t) (ins V c t) (notFirst_of t h0) (last_of t h1) s.2.1 s.2.2.1 s.2.2.2)

/-- The state after the point at position `n`, by recursion on the position. -/
def stAt (c : Dev nD) : (n : ℕ) → n < cfg1.N → St F
  | 0, hn => firstAt V c ⟨0, hn⟩ (Nat.zero_mod 4)
  | n + 1, hn =>
    if h0 : (n + 1) % 4 = 0 then firstAt V c ⟨n + 1, hn⟩ h0
    else if h1 : (n + 1) % 4 = 3 then lastAt V c ⟨n + 1, hn⟩ h0 h1 (stAt c n (Nat.lt_of_succ_lt hn))
    else midAt V c ⟨n + 1, hn⟩ h0 h1 (stAt c n (Nat.lt_of_succ_lt hn))

theorem stAt_first (c : Dev nD) (t : Fin cfg1.N) (h0 : t.val % 4 = 0) : stAt V c t.val t.isLt = firstAt V c t h0 := by
  obtain ⟨n, hn⟩ := t
  cases n with
  | zero => exact rfl
  | succ n => exact (dif_pos h0).trans rfl

theorem stAt_mid (c : Dev nD) (t : Fin cfg1.N) (h0 : ¬t.val % 4 = 0) (h1 : ¬t.val % 4 = 3) :
    stAt V c t.val t.isLt = midAt V c t h0 h1 (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem stAt_last (c : Dev nD) (t : Fin cfg1.N) (h0 : ¬t.val % 4 = 0) (h1 : t.val % 4 = 3) :
    stAt V c t.val t.isLt = lastAt V c t h0 h1 (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The scratch buffers at a state's values, the untouched scoped buffers, the generator register. -/
def held (c : Dev nD) (s : St F) : sProp 𝕄 :=
  iprop(iprop(iprop(owns (c : Thread nD τ) scAcc fullShare s.2.1 ∗ owns (c : Thread nD τ) scSelf fullShare s.2.2.1 ∗ owns (c : Thread nD τ) scDen fullShare s.2.2.2) ∗ otherRest c) ∗ (∃ r, prngReg c r))

/-- The invariant before position `n`: the plain one at first, then the scratch buffers at what the point before left. -/
def PhiS (c : Dev nD) : (n : ℕ) → n ≤ cfg1.N → sProp 𝕄
  | 0, _ => Pipeline.ΦA spec1 c
  | n + 1, hn => held c (stAt V c n hn)

theorem PhiS_pos (c : Dev nD) (n : ℕ) (h : n ≤ cfg1.N) (hz : n ≠ 0) : PhiS V c n h = held c (stAt V c (n - 1) (by omega)) := by
  cases n with
  | zero => exact absurd rfl hz
  | succ n => rfl

/-- Forgetting the scratch contents gives the plain invariant back. -/
theorem PhiS_weak (c : Dev nD) (n : ℕ) (h : n ≤ cfg1.N) : PhiS V c n h ⊢ Pipeline.ΦA spec1 c := by
  cases n with
  | zero => exact .rfl
  | succ n =>
    rw [PhiA_eq']; show held c _ ⊢ _; unfold held
    iintro ⟨⟨⟨HA, HS, HD⟩, HR⟩, Hg⟩
    isplitl [HA HS HD HR]
    · isplitl [HA HS HD]
      · isplitl [HA]; · iexists _; iexact HA
        isplitl [HS]; · iexists _; iexact HS
        iexists _; iexact HD
      iexact HR
    iexact Hg

/-- The region's proof data: the arrays as found; each input's buffer keeps its block, the output's holds `stAt`'s
    first component; the features' array is held half and half by its two windows. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (stAt V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = (stAt V c t.val t.isLt).1 := by dsimp only [dat]
theorem before_0 (c : Dev nD) (t : Fin cfg1.N) (d) : (dat V c).before 0 t d = iblk V c 0 t :=
  ((dat V c).before_in_eq_fetched 0 rfl (fun _ => rfl) (fun _ _ _ => rfl) (fun _ => rfl) t d).trans rfl
theorem before_1 (c : Dev nD) (t : Fin cfg1.N) (d) : (dat V c).before 1 t d = iblk V c 1 t :=
  ((dat V c).before_in_eq_fetched 1 rfl (fun _ => rfl) (fun _ _ _ => rfl) (fun _ => rfl) t d).trans rfl
theorem before_2 (c : Dev nD) (t : Fin cfg1.N) (d) : (dat V c).before 2 t d = iblk V c 2 t :=
  ((dat V c).before_in_eq_fetched 2 rfl (fun _ => rfl) (fun _ _ _ => rfl) (fun _ => rfl) t d).trans rfl
theorem before_3 (c : Dev nD) (t : Fin cfg1.N) (d) : (dat V c).before 3 t d = iblk V c 3 t :=
  ((dat V c).before_in_eq_fetched 3 rfl (fun _ => rfl) (fun _ _ _ => rfl) (fun _ => rfl) t d).trans rfl
theorem before_4 (c : Dev nD) (t : Fin cfg1.N) (d) : (dat V c).before 4 t d = iblk V c 4 t :=
  ((dat V c).before_in_eq_fetched 4 rfl (fun _ => rfl) (fun _ _ _ => rfl) (fun _ => rfl) t d).trans rfl
theorem before_5 (c : Dev nD) (t : Fin cfg1.N) (d) : (dat V c).before 5 t d = iblk V c 5 t :=
  ((dat V c).before_in_eq_fetched 5 rfl (fun _ => rfl) (fun _ _ _ => rfl) (fun _ => rfl) t d).trans rfl
theorem before_6 (c : Dev nD) (t : Fin cfg1.N) (d) : (dat V c).before 6 t d = iblk V c 6 t :=
  ((dat V c).before_in_eq_fetched 6 rfl (fun _ => rfl) (fun _ _ _ => rfl) (fun _ => rfl) t d).trans rfl

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t ∗ (dat V c).leavesExact 5 t ∗ (dat V c).leavesExact 6 t ∗ (dat V c).leavesExact 7 t)

set_option maxHeartbeats 8000000 in
/-- The body at any point: its position says which of the three cases it is; the invariant hands the scratch buffers
    over at what the point before left and takes them back at this point's values. -/
theorem sound_body (c : Dev nD) (t : Fin cfg1.N) :
    bodyPre V c t ⊢ wp frame (wpE (defs₀ (F := F)) Variants.none c none) Set.univ (bodyAt1 t) (fun _ => bodyPost V c t) := by
  unfold bodyPre bodyPost
  rw [show bodyAt1 t = kbody (F := F) (grid1.coords t) (mem t) from rfl]
  simp only [before_0, before_1, before_2, before_3, before_4, before_5, before_6]
  rw [show (dat V c).owesAt () t.succ = (dat V c).owesAt () t.castSucc from rfl]
  rw [show (dat V c).Φ t.succ = held c (stAt V c t.val t.isLt) from rfl, PhiS_castSucc V c t]
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  rw [show (dat V c).leavesExact 3 t = owns (c : Thread nD τ) (ms_3 t) fullShare ((dat V c).after 3 t) from by
    unfold Dat.leavesExact; rw [live_3 t], after_3]
  rw [show (dat V c).leavesExact 4 t = owns (c : Thread nD τ) (ms_4 t) fullShare ((dat V c).after 4 t) from by
    unfold Dat.leavesExact; rw [live_4 t], after_4]
  rw [show (dat V c).leavesExact 5 t = owns (c : Thread nD τ) (ms_5 t) fullShare ((dat V c).after 5 t) from by
    unfold Dat.leavesExact; rw [live_5 t], after_5]
  rw [show (dat V c).leavesExact 6 t = owns (c : Thread nD τ) (ms_6 t) fullShare ((dat V c).after 6 t) from by
    unfold Dat.leavesExact; rw [live_6 t], after_6]
  by_cases h0 : t.val % 4 = 0
  · rw [Dat.leavesExact_idle (dat V c) 7 t (idle_7 t (notLast_of_first t h0)) (noFlush_7 t (notLast_of_first t h0))]
    rw [stAt_first V c t h0]
    refine BIBase.Entails.trans (sep_mono (PhiS_weak V c _ _) .rfl) ?_
    rw [PhiA_eq']
    unfold held firstAt
    dsimp only
    unfold accFirst selfFirst denFirst
    iintro ⟨⟨⟨⟨HA, HS, HD⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid1.coords t) (mem t) (ins V c t) (first_of t h0) (notLast_of_first t h0)).2.2.2 _ Set.univ _)
    unfold insAnd
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]; · iexact HA
    isplitl [HS]; · iexact HS
    isplitl [HD]; · iexact HD
    iintro ⟨H0, H1, H2, H3, H4, H5, H6, H7, HA, HS, HD⟩
    isplitl [HA HS HD HR Hg]
    · isplitl [HA HS HD HR]
      · isplitl [HA HS HD]
        · isplitl [HA]; · iapply (owns_found c _ _ _ (cover_accFirst c _ _ _ _ _)); iexact HA
          isplitl [HS]; · iapply (owns_found c _ _ _ (cover_selfFirst c _ _ _ _ _)); iexact HS
          iapply (owns_found c _ _ _ (cover_denFirst c _ _ _ _ _)); iexact HD
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hz : t.val ≠ 0 := fun e => h0 (by rw [e])
    rw [PhiS_pos V c _ _ hz]
    by_cases h1 : t.val % 4 = 3
    · rw [show (dat V c).leavesExact 7 t = owns (c : Thread nD τ) (ms_7 t) fullShare ((dat V c).after 7 t) from by
        unfold Dat.leavesExact; rw [live_7 t (last_of t h1)], after_7]
      rw [stAt_last V c t h0 h1]
      unfold held lastAt
      dsimp only
      unfold outLast accLast denLast
      iintro ⟨⟨⟨⟨HA, HS, HD⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid1.coords t) (mem t) (ins V c t) (notFirst_of t h0) (last_of t h1) _ _ _).2.2.2 Set.univ _)
      unfold insAnd
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HA]; · iexact HA
      isplitl [HS]; · iexact HS
      isplitl [HD]; · iexact HD
      iintro ⟨H0, H1, H2, H3, H4, H5, H6, H7, HA, HS, HD⟩
      isplitl [HA HS HD HR Hg]
      · isplitl [HA HS HD HR]
        · isplitl [HA HS HD]
          · isplitl [HA]; · iapply (owns_found c _ _ _ (cover_accLast c _ _ _ _ _ _ _ _)); iexact HA
            isplitl [HS]; · iexact HS
            iapply (owns_found c _ _ _ (cover_denLast c _ _ _ _ _ _ _ _)); iexact HD
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (owns_found c _ _ _ (cover_outLast c _ _ _ _ _ _ _ _)); iexact H7
    · rw [Dat.leavesExact_idle (dat V c) 7 t (idle_7 t (notLast_of t h1)) (noFlush_7 t (notLast_of t h1))]
      rw [stAt_mid V c t h0 h1]
      unfold held midAt
      dsimp only
      unfold accMid denMid
      iintro ⟨⟨⟨⟨HA, HS, HD⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid1.coords t) (mem t) (ins V c t) (notFirst_of t h0) (notLast_of t h1) _ _).2.2 _ _ Set.univ _)
      unfold insAnd
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HA]; · iexact HA
      isplitl [HS]; · iexact HS
      isplitl [HD]; · iexact HD
      iintro ⟨H0, H1, H2, H3, H4, H5, H6, H7, HA, HS, HD⟩
      isplitl [HA HS HD HR Hg]
      · isplitl [HA HS HD HR]
        · isplitl [HA HS HD]
          · isplitl [HA]; · iapply (owns_found c _ _ _ (cover_accMid c _ _ _ _ _ _ _)); iexact HA
            isplitl [HS]; · iexact HS
            iapply (owns_found c _ _ _ (cover_denMid c _ _ _ _ _ _ _)); iexact HD
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := .rfl

theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl]
  exact PhiS_weak V c _ _

end Cert.KernelIdeal.R1

end
-- ==== Proof.KI.RunAll.lean ====
import proofs.«139723_j51213190037828_1_alg».proof.Proof.Gen.KernelIdeal.Regions
import proofs.«139723_j51213190037828_1_alg».proof.Proof.KI.RunArrays
import proofs.«139723_j51213190037828_1_alg».proof.Proof.KI.R0Dat
import proofs.«139723_j51213190037828_1_alg».proof.Proof.KI.R1Dat
import Idealize.ShloMosaic.Lib.Pipeline.FrameBody
import Idealize.ShloMosaic.Lib.Pipeline.FrameSuffix
import Idealize.ShloMosaic.Lib.Pipeline.RegionsLoop
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section ValueCond

variable (m : (ℓ : Loc nD τ sig) → Buf (Elt F) ℓ)

set_option backward.isDefEq.respectTransparency.types false in

theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v22) = V5 m outs c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, hpost0 c, hpre1 c, hpost1 c, sep_mono .rfl (hE2 c)⟩)
    (hinit := ?_) (QY := fun c s => s.mem ((c.tc : Thread nD τ).loc main_v22) = V5 m outs c main_v22 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨h (Proc.devRef .tc main_v22) (Finset.mem_filter.mpr ⟨StableHlo.devRef_mem_tcRefs main_v22, by decide⟩),
        (h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c),
        (h (Proc.devRef .tc main_arg2) (Finset.mem_filter.mpr ⟨StableHlo.devRef_mem_tcRefs main_arg2, by decide⟩)).trans (V5_main_arg2 m outs c),
        (h (Proc.devRef .tc main_arg3) (Finset.mem_filter.mpr ⟨StableHlo.devRef_mem_tcRefs main_arg3, by decide⟩)).trans (V5_main_arg3 m outs c),
        (h (Proc.devRef .tc main_arg4) (Finset.mem_filter.mpr ⟨StableHlo.devRef_mem_tcRefs main_arg4, by decide⟩)).trans (V5_main_arg4 m outs c),
        (h (Proc.devRef .tc main_arg5) (Finset.mem_filter.mpr ⟨StableHlo.devRef_mem_tcRefs main_arg5, by decide⟩)).trans (V5_main_arg5 m outs c)⟩
    · iexact HSI

end ValueCond

variable (m : (ℓ : Loc nD τ sig) → Buf (Elt F) ℓ) (ρ : Dev nD → PrngReg)

abbrev VR1 : (c : Dev nD) → (b : Ref sig .tc) → Buf (Elt F) ((c : Thread nD τ).loc b) := fun c b => Gen.V1 m c b

def outsA : Gen.Outs (F := F) := fun _ r c =>
  if h : r = main_v12 then h ▸ ((R0.dat (VR1 m) c).arrAt 7 cfg0.N : Buf (Elt F) ((c : Thread nD τ).loc main_v12)) else Gen.V1 m c r

abbrev VR3 : (c : Dev nD) → (b : Ref sig .tc) → Buf (Elt F) ((c : Thread nD τ).loc b) := fun c b => Gen.V3 m (outsA m) c b

def outs : Gen.Outs (F := F) := fun J r c =>
  if h : r = main_v21 then h ▸ ((R1.dat (VR3 m) c).arrAt 7 cfg1.N : Buf (Elt F) ((c : Thread nD τ).loc main_v21)) else outsA m J r c

theorem outsA_v12 (J : ℕ) (c : Dev nD) : outsA m J main_v12 c = (R0.dat (VR1 m) c).arrAt 7 cfg0.N := by
  unfold outsA; rw [dif_pos rfl]
theorem outs_eq_outsA_v12 (c : Dev nD) : outs m 2 main_v12 c = outsA m 2 main_v12 c := by
  unfold outs; rw [dif_neg (by decide)]
theorem outs_v12 (c : Dev nD) : outs m 2 main_v12 c = (R0.dat (VR1 m) c).arrAt 7 cfg0.N :=
  (outs_eq_outsA_v12 m c).trans (outsA_v12 m 2 c)
theorem outs_v21 (c : Dev nD) : outs m 4 main_v21 c = (R1.dat (VR3 m) c).arrAt 7 cfg1.N := by
  unfold outs; rw [dif_pos rfl]

theorem V3_outs (c : Dev nD) : Gen.V3 m (outs m) c = Gen.V3 m (outsA m) c := by
  show StableHlo.after hostOps1 (Function.update (Gen.V1 m c) _ (outs m 2 main_v12 c))
    = StableHlo.after hostOps1 (Function.update (Gen.V1 m c) _ (outsA m 2 main_v12 c))
  rw [outs_eq_outsA_v12]

theorem V2_v12 (c : Dev nD) : Gen.V2 m (outs m) c main_v12 = (R0.dat (VR1 m) c).arrAt 7 cfg0.N := by
  show Function.update _ _ _ _ = _
  rw [Function.update_self]; exact outs_v12 m c

theorem V4_v21 (c : Dev nD) : Gen.V4 m (outs m) c main_v21 = (R1.dat (VR3 m) c).arrAt 7 cfg1.N := by
  show Function.update _ _ _ _ = _
  rw [Function.update_self]; exact outs_v21 m c

def pdats : (p : Fin 2) → (c : Dev nD) → Dat τ (Elt F) Unit ℕ (UR sig nD τ) ℕ (cfgs p) c
  | ⟨0, _⟩ => fun c => R0.dat (VR1 m) c
  | ⟨1, _⟩ => fun c => R1.dat (VR3 m) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

set_option backward.isDefEq.respectTransparency.types false in
set_option maxHeartbeats 1000000 in

def reg0 : Pipeline.RegionSeg (pcfgs (F := F)) Gen.adm (pdats m) () defs₀ Variants.none L lv 0 where
  win := winFacts₀0
  block_pos := block_pos0
  stage_whole := stage_whole0
  K := PEmpty
  osem k := k.elim
  ho := Pipeline.OwnSemFacts.none _
  hbody c := (R0.body_obligation (VR1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    rw [Pipeline.ownSems0_none]
    have hsplit := entry0 (R0.dat (VR1 m) c) (fun b => Gen.V1 m c b) (R0.A_eq (VR1 m) c) rfl rfl rfl rfl rfl rfl rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin (VR1 m) c)
    unfold Pipeline.ΦA
    iintro ⟨Hp, -, Hr⟩
    isplitl [Hr]; · iexact Hr
    iexact Hp
  hout c := by
    rw [Pipeline.ownSems0_none]
    refine BIBase.Entails.trans (R0.hout (VR1 m) c) ?_
    unfold Pipeline.ΦA
    iintro ⟨Hr, Hp⟩
    isplitl [Hp]; · iexact Hp
    isplitr; · iempintro
    iexact Hr
  hexit c := by
    have hjoin := exit0 (R0.dat (VR1 m) c) (fun b => Gen.V1 m c b) (R0.A_eq (VR1 m) c) rfl rfl rfl rfl rfl rfl rfl
      (fun b => Gen.V2 m (outs m) c b) (fun b hb => (Gen.V2_of m (outs m) c b fun hm => hb ((List.mem_singleton.mp hm).trans rfl))) (V2_v12 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
set_option maxHeartbeats 1000000 in

def reg1 : Pipeline.RegionSeg (pcfgs (F := F)) Gen.adm (pdats m) () defs₀ Variants.none L lv 1 where
  win := winFacts₀1
  block_pos := block_pos1
  stage_whole := stage_whole1
  K := PEmpty
  osem k := k.elim
  ho := Pipeline.OwnSemFacts.none _
  hbody c := (R1.body_obligation (VR3 m) c).loose
  hwaits := Pipeline.hwaits_of_owed_zero _ _ _ _ L lv 1 fun _ _ => rfl
  pre c := iprop(StableHlo.held (c : Thread nD τ) (Pipeline.ucRefs τ sig) (Gen.V3 m (outsA m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V3 m (outsA m) c b)
  hentry c := by
    rw [Pipeline.ownSems0_none]
    have hsplit := entry1 (R1.dat (VR3 m) c) (fun b => Gen.V3 m (outsA m) c b) (R1.A_eq (VR3 m) c) rfl rfl rfl rfl rfl rfl rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin (VR3 m) c)
    unfold Pipeline.ΦA
    iintro ⟨Hp, -, Hr⟩
    isplitl [Hr]; · iexact Hr
    iexact Hp
  hout c := by
    rw [Pipeline.ownSems0_none]
    refine BIBase.Entails.trans (R1.hout (VR3 m) c) ?_
    unfold Pipeline.ΦA
    iintro ⟨Hr, Hp⟩
    isplitl [Hp]; · iexact Hp
    isplitr; · iempintro
    iexact Hr
  hexit c := by
    have hjoin := exit1 (R1.dat (VR3 m) c) (fun b => Gen.V3 m (outsA m) c b) (R1.A_eq (VR3 m) c) rfl rfl rfl rfl rfl rfl rfl
      (fun b => Gen.V4 m (outs m) c b) (fun b hb => ((Gen.V4_of m (outs m) c b fun hm => hb ((List.mem_singleton.mp hm).trans rfl)).trans (congrFun (V3_outs m c) _))) (V4_v21 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in

theorem run_value : θ_run defs (onTc (τ := τ) (main (F := F))) ⟨m, fun _ => 0, ρ⟩ (fun r => ∀ c : Dev nD,
      r.2.mem ((c.tc : Thread nD τ).loc main_v22) = Gen.V5 m (outs m) c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  value_cond m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun c => by rw [V3_outs m c]; exact .rfl) (hpost1 := fun _ => .rfl)

theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (run_value m ρ).mono fun _ h c => (h c).2

end Cert.KernelIdeal.Run

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![8, 2048, 256]⟩
abbrev SA : Shape := ⟨3, ![8, 2048, 2048]⟩
abbrev SW : Shape := ⟨3, ![2, 256, 256]⟩
abbrev SB : Shape := ⟨2, ![2, 256]⟩

abbrev zeroE : EReal := Ideal.ofBits .f32 0x00000000#32
abbrev oneE : EReal := Ideal.ofBits .f32 0x3F800000#32

def dense (x : SX.Idx → EReal) (w : SW.Idx → EReal) (bi : SB.Idx → EReal) (l : Fin 2) (b : Fin 8) (n : Fin 2048) (m : Fin 256) : EReal :=
  (∑ d : Fin 256, x (ix3 b n d) * w (ix3 l m d)) + bi (ix2 l m)

def denom (adj : SA.Idx → EReal) (b : Fin 8) (n : Fin 2048) : EReal :=
  (zeroE + ∑ k : Fin 2048, adj (ix3 b n k)) + oneE

def layer (x : SX.Idx → EReal) (adj : SA.Idx → EReal) (w0 : SW.Idx → EReal) (b0 : SB.Idx → EReal) (wr : SW.Idx → EReal) (br : SB.Idx → EReal)
    (l : Fin 2) : SX.Idx → EReal := fun i =>
  max (Ideal.div ((∑ k : Fin 2048, adj (ix3 (i 0) (i 1) k) * dense x wr br l (i 0) k (i 2)) + dense x w0 b0 l (i 0) (i 1) (i 2)) (denom adj (i 0) (i 1))) zeroE

def net (x : SX.Idx → EReal) (adj : SA.Idx → EReal) (w0 : SW.Idx → EReal) (b0 : SB.Idx → EReal) (wr : SW.Idx → EReal) (br : SB.Idx → EReal) :
    SX.Idx → EReal := fun i =>
  x i + layer (layer x adj w0 b0 wr br 0) adj w0 b0 wr br 1 i

end Cert.Spec

end
-- ==== Proof.KForm.lean ====
import proofs.«139723_j51213190037828_1_alg».proof.Proof.Spec
import Mathlib.Algebra.BigOperators.Fin
import Mathlib.Logic.Equiv.Fin.Basic
import Idealize.ShloMosaic.PureOps.Ideal.Laws

noncomputable section

open scoped BigOperators

namespace Cert.Spec

open Idealize.ShloMosaic Idealize.ShloMosaic.ValueIdx

abbrev nodeOf (q : Fin 4) (j : Fin 512) : Fin 2048 := ⟨q.val * 512 + j.val, by omega⟩

def partA (x : SX.Idx → EReal) (adj : SA.Idx → EReal) (wr : SW.Idx → EReal) (br : SB.Idx → EReal) (l : Fin 2)
    (b : Fin 8) (n : Fin 2048) (m : Fin 256) (q : Fin 4) : EReal :=
  ∑ j : Fin 512, adj (ix3 b n (nodeOf q j)) * dense x wr br l b (nodeOf q j) m

def partD (adj : SA.Idx → EReal) (b : Fin 8) (n : Fin 2048) (q : Fin 4) : EReal :=
  ∑ j : Fin 512, adj (ix3 b n (nodeOf q j))

def klayer (x : SX.Idx → EReal) (adj : SA.Idx → EReal) (w0 : SW.Idx → EReal) (b0 : SB.Idx → EReal) (wr : SW.Idx → EReal) (br : SB.Idx → EReal)
    (l : Fin 2) : SX.Idx → EReal := fun i =>
  max (Ideal.div
      (((((zeroE + partA x adj wr br l (i 0) (i 1) (i 2) 0) + partA x adj wr br l (i 0) (i 1) (i 2) 1) + partA x adj wr br l (i 0) (i 1) (i 2) 2)
          + partA x adj wr br l (i 0) (i 1) (i 2) 3) + dense x w0 b0 l (i 0) (i 1) (i 2))
      (((((zeroE + partD adj (i 0) (i 1) 0) + partD adj (i 0) (i 1) 1) + partD adj (i 0) (i 1) 2) + partD adj (i 0) (i 1) 3) + oneE))
    zeroE

theorem sum_nodes_eq_sum_blocks {M : Type*} [AddCommMonoid M] (f : Fin 2048 → M) :
    ∑ k : Fin 2048, f k = ∑ q : Fin 4, ∑ j : Fin 512, f (nodeOf q j) := by
  calc ∑ k : Fin 2048, f k
      = ∑ p : Fin 4 × Fin 512, f ((finProdFinEquiv : Fin 4 × Fin 512 ≃ Fin (4 * 512)) p) :=
        (Equiv.sum_comp (finProdFinEquiv : Fin 4 × Fin 512 ≃ Fin (4 * 512)) f).symm
    _ = ∑ q : Fin 4, ∑ j : Fin 512, f ((finProdFinEquiv : Fin 4 × Fin 512 ≃ Fin (4 * 512)) (q, j)) :=
        Fintype.sum_prod_type _
    _ = ∑ q : Fin 4, ∑ j : Fin 512, f (nodeOf q j) := by
        refine Finset.sum_congr rfl fun q _ => Finset.sum_congr rfl fun j _ => ?_
        congr 1
        apply Fin.ext
        simp only [finProdFinEquiv, Equiv.coe_fn_mk, nodeOf]
        omega

theorem blocks_add_eq_sum {M : Type*} [AddCommMonoid M] (f : Fin 2048 → M) :
    (((∑ j : Fin 512, f (nodeOf 0 j)) + ∑ j : Fin 512, f (nodeOf 1 j)) + ∑ j : Fin 512, f (nodeOf 2 j))
        + ∑ j : Fin 512, f (nodeOf 3 j) = ∑ k : Fin 2048, f k := by
  rw [sum_nodes_eq_sum_blocks f, Fin.sum_univ_four]

theorem klayer_eq_layer (x : SX.Idx → EReal) (adj : SA.Idx → EReal) (w0 : SW.Idx → EReal) (b0 : SB.Idx → EReal) (wr : SW.Idx → EReal) (br : SB.Idx → EReal)
    (l : Fin 2) : klayer x adj w0 b0 wr br l = layer x adj w0 b0 wr br l := by
  funext i
  have hz : zeroE = 0 := Ideal.ofBits_zero_f32
  have hA : (((∑ j : Fin 512, adj (ix3 (i 0) (i 1) (nodeOf 0 j)) * dense x wr br l (i 0) (nodeOf 0 j) (i 2))
        + ∑ j : Fin 512, adj (ix3 (i 0) (i 1) (nodeOf 1 j)) * dense x wr br l (i 0) (nodeOf 1 j) (i 2))
        + ∑ j : Fin 512, adj (ix3 (i 0) (i 1) (nodeOf 2 j)) * dense x wr br l (i 0) (nodeOf 2 j) (i 2))
        + ∑ j : Fin 512, adj (ix3 (i 0) (i 1) (nodeOf 3 j)) * dense x wr br l (i 0) (nodeOf 3 j) (i 2)
      = ∑ k : Fin 2048, adj (ix3 (i 0) (i 1) k) * dense x wr br l (i 0) k (i 2) :=
    blocks_add_eq_sum (fun k => adj (ix3 (i 0) (i 1) k) * dense x wr br l (i 0) k (i 2))
  have hD : (((∑ j : Fin 512, adj (ix3 (i 0) (i 1) (nodeOf 0 j)))
        + ∑ j : Fin 512, adj (ix3 (i 0) (i 1) (nodeOf 1 j)))
        + ∑ j : Fin 512, adj (ix3 (i 0) (i 1) (nodeOf 2 j)))
        + ∑ j : Fin 512, adj (ix3 (i 0) (i 1) (nodeOf 3 j))
      = ∑ k : Fin 2048, adj (ix3 (i 0) (i 1) k) :=
    blocks_add_eq_sum (fun k => adj (ix3 (i 0) (i 1) k))
  unfold klayer layer denom partA partD
  rw [hz, zero_add, zero_add, zero_add, hA, hD]

end Cert.Spec

end
-- ==== Proof.KI.R0Blocks.lean ====
import proofs.«139723_j51213190037828_1_alg».proof.Proof.KI.R0Dat
import proofs.«139723_j51213190037828_1_alg».proof.Proof.KForm
import Idealize.ShloMosaic.Lib.Pipeline.Value
import Idealize.ShloMosaic.Lib.ValueIdx

set_option maxRecDepth 16384

noncomputable section

namespace Cert.KernelIdeal.R0

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

def bOf (t : Fin cfg0.N) : Fin 8 := ⟨t.val / 4, by have := t.isLt; have h : cfg0.N = 32 := N_0; omega⟩
def kOf (t : Fin cfg0.N) : Fin 4 := ⟨t.val % 4, by omega⟩

theorem idx_facts0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)

theorem idx_facts1 : ∀ t : Fin cfg0.N, win0_1.index t (0 : Fin 3) = t.val / 4 ∧ win0_1.index t (1 : Fin 3) = 0 ∧ win0_1.index t (2 : Fin 3) = 0 :=
  (by decide +kernel : ∀ t : Fin grid0.N, _)

theorem idx_facts2 : ∀ t : Fin cfg0.N, win0_2.index t (0 : Fin 3) = t.val / 4 ∧ win0_2.index t (1 : Fin 3) = 0 ∧ win0_2.index t (2 : Fin 3) = t.val % 4 :=
  (by decide +kernel : ∀ t : Fin grid0.N, _)

theorem idx_facts3 : ∀ t : Fin cfg0.N, win0_3.index t (0 : Fin 2) = 0 ∧ win0_3.index t (1 : Fin 2) = 0 :=
  (by decide +kernel : ∀ t : Fin grid0.N, _)
theorem idx_facts4 : ∀ t : Fin cfg0.N, win0_4.index t (0 : Fin 2) = 0 ∧ win0_4.index t (1 : Fin 2) = 0 :=
  (by decide +kernel : ∀ t : Fin grid0.N, _)
theorem idx_facts5 : ∀ t : Fin cfg0.N, win0_5.index t (0 : Fin 2) = 0 ∧ win0_5.index t (1 : Fin 2) = 0 :=
  (by decide +kernel : ∀ t : Fin grid0.N, _)
theorem idx_facts6 : ∀ t : Fin cfg0.N, win0_6.index t (0 : Fin 2) = 0 ∧ win0_6.index t (1 : Fin 2) = 0 :=
  (by decide +kernel : ∀ t : Fin grid0.N, _)

theorem idx_facts7 : ∀ t : Fin cfg0.N, win0_7.index t (0 : Fin 3) = t.val / 4 ∧ win0_7.index t (1 : Fin 3) = 0 ∧ win0_7.index t (2 : Fin 3) = 0 :=
  (by decide +kernel : ∀ t : Fin grid0.N, _)

abbrev xk (c : Dev nD) (t : Fin cfg0.N) : Vec F S1x512x256 .f32 := (ins V c t).x0
abbrev xn (c : Dev nD) (t : Fin cfg0.N) : Vec F S1x2048x256 .f32 := (ins V c t).x1
abbrev adjb (c : Dev nD) (t : Fin cfg0.N) : Vec F S1x2048x512 .f32 := (ins V c t).x2
abbrev wrB (c : Dev nD) (t : Fin cfg0.N) : Vec F S256x256 .f32 := (ins V c t).x3
abbrev wrbB (c : Dev nD) (t : Fin cfg0.N) : Vec F S1x256 .f32 := (ins V c t).x4
abbrev w0B (c : Dev nD) (t : Fin cfg0.N) : Vec F S256x256 .f32 := (ins V c t).x5
abbrev w0bB (c : Dev nD) (t : Fin cfg0.N) : Vec F S1x256 .f32 := (ins V c t).x6
abbrev aX (c : Dev nD) : Vec F S8x2048x256 .f32 := V c (Pipeline.arrRef spec0 0)
abbrev aAdj (c : Dev nD) : Vec F S8x2048x2048 .f32 := V c (Pipeline.arrRef spec0 2)
abbrev aWr (c : Dev nD) : Vec F S256x256 .f32 := V c (Pipeline.arrRef spec0 3)
abbrev aWrb (c : Dev nD) : Vec F S1x256 .f32 := V c (Pipeline.arrRef spec0 4)
abbrev aW0 (c : Dev nD) : Vec F S256x256 .f32 := V c (Pipeline.arrRef spec0 5)
abbrev aW0b (c : Dev nD) : Vec F S1x256 .f32 := V c (Pipeline.arrRef spec0 6)

theorem xk_apply (c : Dev nD) (t : Fin cfg0.N) (j : Fin 512) (d : Fin 256) :
    xk V c t (ix3 (0 : Fin 1) j d) = aX V c (ix3 (bOf t) (Cert.Spec.nodeOf (kOf t) j) d) := by
  obtain ⟨e0, e1, e2⟩ := idx_facts0 t
  show V c (Pipeline.arrRef spec0 0) (((cfg0.win 0).blk t).view.emb (ix3 (0 : Fin 1) j d)) = V c (Pipeline.arrRef spec0 0) (ix3 (bOf t) (Cert.Spec.nodeOf (kOf t) j) d)
  refine congrArg _ (funext fun a => Fin.ext ?_)
  match a with
  | ⟨0, _⟩ => show win0_0.index t (0 : Fin 3) * 1 + 1 * (0 : Fin 1).val = t.val / 4; rw [e0]; show t.val / 4 * 1 + 1 * 0 = t.val / 4; omega
  | ⟨1, _⟩ => show win0_0.index t (1 : Fin 3) * 512 + 1 * j.val = t.val % 4 * 512 + j.val; rw [e1]; omega
  | ⟨2, _⟩ => show win0_0.index t (2 : Fin 3) * 256 + 1 * d.val = d.val; rw [e2]; omega
theorem xn_apply (c : Dev nD) (t : Fin cfg0.N) (n : Fin 2048) (d : Fin 256) :
    xn V c t (ix3 (0 : Fin 1) n d) = aX V c (ix3 (bOf t) n d) := by
  obtain ⟨e0, e1, e2⟩ := idx_facts1 t
  show V c (Pipeline.arrRef spec0 1) (((cfg0.win 1).blk t).view.emb (ix3 (0 : Fin 1) n d)) = V c (Pipeline.arrRef spec0 0) (ix3 (bOf t) n d)
  refine congrArg _ (funext fun a => Fin.ext ?_)
  match a with
  | ⟨0, _⟩ => show win0_1.index t (0 : Fin 3) * 1 + 1 * (0 : Fin 1).val = t.val / 4; rw [e0]; show t.val / 4 * 1 + 1 * 0 = t.val / 4; omega
  | ⟨1, _⟩ => show win0_1.index t (1 : Fin 3) * 2048 + 1 * n.val = n.val; rw [e1]; omega
  | ⟨2, _⟩ => show win0_1.index t (2 : Fin 3) * 256 + 1 * d.val = d.val; rw [e2]; omega
theorem adjb_apply (c : Dev nD) (t : Fin cfg0.N) (n : Fin 2048) (j : Fin 512) :
    adjb V c t (ix3 (0 : Fin 1) n j) = aAdj V c (ix3 (bOf t) n (Cert.Spec.nodeOf (kOf t) j)) := by
  obtain ⟨e0, e1, e2⟩ := idx_facts2 t
  show V c (Pipeline.arrRef spec0 2) (((cfg0.win 2).blk t).view.emb (ix3 (0 : Fin 1) n j)) = V c (Pipeline.arrRef spec0 2) (ix3 (bOf t) n (Cert.Spec.nodeOf (kOf t) j))
  refine congrArg _ (funext fun a => Fin.ext ?_)
  match a with
  | ⟨0, _⟩ => show win0_2.index t (0 : Fin 3) * 1 + 1 * (0 : Fin 1).val = t.val / 4; rw [e0]; show t.val / 4 * 1 + 1 * 0 = t.val / 4; omega
  | ⟨1, _⟩ => show win0_2.index t (1 : Fin 3) * 2048 + 1 * n.val = n.val; rw [e1]; omega
  | ⟨2, _⟩ => show win0_2.index t (2 : Fin 3) * 512 + 1 * j.val = t.val % 4 * 512 + j.val; rw [e2]; omega
theorem wrB_apply (c : Dev nD) (t : Fin cfg0.N) (d m : Fin 256) : wrB V c t (ix2 d m) = aWr V c (ix2 d m) := by
  obtain ⟨e0, e1⟩ := idx_facts3 t
  show V c (Pipeline.arrRef spec0 3) (((cfg0.win 3).blk t).view.emb (ix2 d m)) = V c (Pipeline.arrRef spec0 3) (ix2 d m)
  refine congrArg _ (funext fun a => Fin.ext ?_)
  match a with
  | ⟨0, _⟩ => show win0_3.index t (0 : Fin 2) * 256 + 1 * d.val = d.val; rw [e0]; omega
  | ⟨1, _⟩ => show win0_3.index t (1 : Fin 2) * 256 + 1 * m.val = m.val; rw [e1]; omega
theorem wrbB_apply (c : Dev nD) (t : Fin cfg0.N) (m : Fin 256) : wrbB V c t (ix2 (0 : Fin 1) m) = aWrb V c (ix2 (0 : Fin 1) m) := by
  obtain ⟨e0, e1⟩ := idx_facts4 t
  show V c (Pipeline.arrRef spec0 4) (((cfg0.win 4).blk t).view.emb (ix2 (0 : Fin 1) m)) = V c (Pipeline.arrRef spec0 4) (ix2 (0 : Fin 1) m)
  refine congrArg _ (funext fun a => Fin.ext ?_)
  match a with
  | ⟨0, _⟩ => show win0_4.index t (0 : Fin 2) * 1 + 1 * (0 : Fin 1).val = (0 : Fin 1).val; rw [e0]; omega
  | ⟨1, _⟩ => show win0_4.index t (1 : Fin 2) * 256 + 1 * m.val = m.val; rw [e1]; omega
theorem w0B_apply (c : Dev nD) (t : Fin cfg0.N) (d m : Fin 256) : w0B V c t (ix2 d m) = aW0 V c (ix2 d m) := by
  obtain ⟨e0, e1⟩ := idx_facts5 t
  show V c (Pipeline.arrRef spec0 5) (((cfg0.win 5).blk t).view.emb (ix2 d m)) = V c (Pipeline.arrRef spec0 5) (ix2 d m)
  refine congrArg _ (funext fun a => Fin.ext ?_)
  match a with
  | ⟨0, _⟩ => show win0_5.index t (0 : Fin 2) * 256 + 1 * d.val = d.val; rw [e0]; omega
  | ⟨1, _⟩ => show win0_5.index t (1 : Fin 2) * 256 + 1 * m.val = m.val; rw [e1]; omega
theorem w0bB_apply (c : Dev nD) (t : Fin cfg0.N) (m : Fin 256) : w0bB V c t (ix2 (0 : Fin 1) m) = aW0b V c (ix2 (0 : Fin 1) m) := by
  obtain ⟨e0, e1⟩ := idx_facts6 t
  show V c (Pipeline.arrRef spec0 6) (((cfg0.win 6).blk t).view.emb (ix2 (0 : Fin 1) m)) = V c (Pipeline.arrRef spec0 6) (ix2 (0 : Fin 1) m)
  refine congrArg _ (funext fun a => Fin.ext ?_)
  match a with
  | ⟨0, _⟩ => show win0_6.index t (0 : Fin 2) * 1 + 1 * (0 : Fin 1).val = (0 : Fin 1).val; rw [e0]; omega
  | ⟨1, _⟩ => show win0_6.index t (1 : Fin 2) * 256 + 1 * m.val = m.val; rw [e1]; omega

theorem flush7 : ∀ t : Fin cfg0.N, (cfg0.win 7).flush t = true ↔ t.val % 4 = 3 :=
  (by decide +kernel : ∀ t : Fin grid0.N, win0_7.flush t = true ↔ t.val % 4 = 3)

theorem mem_blk7 (t : Fin cfg0.N) (i : S8x2048x256.Idx) :
    i ∈ ((cfg0.win 7).blk t).view.set ↔ ∀ a : Fin 3, win0_7.index t a * S1x2048x256.size a ≤ (i a).val ∧ (i a).val < win0_7.index t a * S1x2048x256.size a + S1x2048x256.size a := by
  show i ∈ ((View.whole (Pipeline.arrRef spec0 7)).slice (win0_7.rect t)).set ↔ _
  rw [View.set_slice_whole, Rect.mem_set_unit]
  exact Iff.rfl

theorem arrAt_out (c : Dev nD) (G : Vec F S8x2048x256 .f32)
    (hG : ∀ t : Fin cfg0.N, t.val % 4 = 3 → ∀ (n : Fin 2048) (m : Fin 256),
      (stAt V c t.val t.isLt).1 (ix3 (0 : Fin 1) n m) = G (ix3 (bOf t) n m)) :
    (dat V c).arrAt 7 cfg0.N = G := by
  have hN : cfg0.N = 32 := N_0
  refine (dat V c).arrAt_eq_of_cover 7 G (fun t hf => ?_) (fun i => ?_)
  · have h3 : t.val % 4 = 3 := (flush7 t).mp hf
    obtain ⟨e0, e1, e2⟩ := idx_facts7 t
    show (cfg0.win 7).cut (grid0.coords t) ((dat V c).after 7 t) = _
    rw [after_7]
    funext y
    obtain ⟨u, n, m, rfl⟩ : ∃ (u : Fin 1) (n : Fin 2048) (m : Fin 256), y = ix3 u n m := ⟨y 0, y 1, y 2, eq_ix3 y⟩
    obtain rfl : u = (0 : Fin 1) := Subsingleton.elim _ _
    show (stAt V c t.val t.isLt).1 (ix3 (0 : Fin 1) n m) = G (((cfg0.win 7).blk t).view.emb (ix3 (0 : Fin 1) n m))
    rw [hG t h3 n m]
    refine congrArg G (funext fun a => Fin.ext ?_)
    match a with
    | ⟨0, _⟩ => show t.val / 4 = win0_7.index t (0 : Fin 3) * 1 + 1 * (0 : Fin 1).val; rw [e0]; show t.val / 4 = t.val / 4 * 1 + 1 * 0; omega
    | ⟨1, _⟩ => show n.val = win0_7.index t (1 : Fin 3) * 2048 + 1 * n.val; rw [e1]; omega
    | ⟨2, _⟩ => show m.val = win0_7.index t (2 : Fin 3) * 256 + 1 * m.val; rw [e2]; omega
  · have hi0 : (i 0).val < 8 := (i 0).isLt
    have hi1 : (i 1).val < 2048 := (i 1).isLt
    have hi2 : (i 2).val < 256 := (i 2).isLt
    let t : Fin cfg0.N := ⟨4 * (i 0).val + 3, by omega⟩
    have ht : t.val = 4 * (i 0).val + 3 := rfl
    obtain ⟨e0, e1, e2⟩ := idx_facts7 t
    refine ⟨t, (flush7 t).mpr (by omega), ?_⟩
    rw [mem_blk7]
    intro a
    match a with
    | ⟨0, _⟩ => show win0_7.index t (0 : Fin 3) * 1 ≤ (i 0).val ∧ (i 0).val < win0_7.index t (0 : Fin 3) * 1 + 1; rw [e0]; omega
    | ⟨1, _⟩ => show win0_7.index t (1 : Fin 3) * 2048 ≤ (i 1).val ∧ (i 1).val < win0_7.index t (1 : Fin 3) * 2048 + 2048; rw [e1]; omega
    | ⟨2, _⟩ => show win0_7.index t (2 : Fin 3) * 256 ≤ (i 2).val ∧ (i 2).val < win0_7.index t (2 : Fin 3) * 256 + 256; rw [e2]; omega

end Cert.KernelIdeal.R0

end
-- ==== Proof.LibPlainDot.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

theorem scalar_zero : (Scalar.ofBits (F := Ideal) .f32 0x00000000#32 : Ideal .f32) = (0 : EReal) :=
  Ideal.ofBits_zero_f32

end Cert.LibPlainDot

end
-- ==== Proof.KI.PayRead.lean ====
import proofs.«139723_j51213190037828_1_alg».proof.Proof.Gen.KernelIdeal.Skeleton
import proofs.«139723_j51213190037828_1_alg».proof.Proof.LibPlainDot
import proofs.«139723_j51213190037828_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

open scoped BigOperators

namespace Cert.KernelIdeal.PayRead

open Cert.KernelIdeal Cert.KernelIdeal.Gen Idealize.ShloMosaic Idealize.ShloMosaic.ValueIdx

theorem lhs_dotA_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_dotA_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_dotA_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_dotA_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

theorem lhs_dotB_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_dotB_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_dotB_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_dotB_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

theorem lhs_dotC_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs_dotC_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs_dotC_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs_dotC_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem pay2_apply (n : Fin 2048) (m : Fin 256) : k0_pay2 (F := Ideal) (ix2 n m) = Cert.Spec.zeroE := by
  unfold k0_pay2
  rfl

theorem pay3_apply (n : Fin 2048) : k0_pay3 (F := Ideal) (ix2 n (0 : Fin 1)) = Cert.Spec.zeroE := by
  unfold k0_pay3
  rfl

theorem pay4_apply (v42 : Vec Ideal S1x2048x256 .f32) (v45 : Vec Ideal S256x256 .f32) (v49 : Vec Ideal S1x256 .f32) (n : Fin 2048) (m : Fin 256) :
    k0_pay4 v42 v45 v49 (ix2 n m) = (∑ d : Fin 256, v42 (ix3 (0 : Fin 1) n d) * v45 (ix2 d m)) + v49 (ix2 (0 : Fin 1) m) := by
  unfold k0_pay4
  simp only [shapeCast_self]
  rw [addf_apply, broadcastTo_1b_ab_apply]
  refine congrArg (· + v49 (ix2 (0 : Fin 1) m)) ?_
  refine (Ideal.matmul_constant_zero_apply _ none _ _ (ix2 n m)).trans ?_
  refine (Cert.LibPlainDot.sum_plain (M := 2048) (K := 256) (N := 256) dot_S2048x256_S256x256_S2048x256_1_0_0_1_n_n rfl rfl
    lhs_dotA_0 lhs_dotA_1 rhs_dotA_0 rhs_dotA_1 _ _ n m).trans ?_
  refine Finset.sum_congr rfl fun d _ => ?_
  rw [truncf_apply, truncf_apply, shapeCast_1ab_ab_apply]

theorem pay6_apply (v3 : Vec Ideal S1x2048x512 .f32) (v5 : Vec Ideal S1x512x256 .f32) (v8 : Vec Ideal S256x256 .f32) (v12 : Vec Ideal S1x256 .f32) (v19 : Vec Ideal S2048x256 .f32) (n : Fin 2048) (m : Fin 256) :
    k0_pay6 v3 v5 v8 v12 v19 (ix2 n m) = v19 (ix2 n m) + ∑ j : Fin 512, v3 (ix3 (0 : Fin 1) n j) * ((∑ d : Fin 256, v5 (ix3 (0 : Fin 1) j d) * v8 (ix2 d m)) + v12 (ix2 (0 : Fin 1) m)) := by
  unfold k0_pay6 k0_pay5
  simp only [shapeCast_self]
  rw [addf_apply]
  refine congrArg (v19 (ix2 n m) + ·) ?_
  refine (Ideal.matmul_constant_zero_apply _ none _ _ (ix2 n m)).trans ?_
  refine (Cert.LibPlainDot.sum_plain (M := 2048) (K := 512) (N := 256) dot_S2048x512_S512x256_S2048x256_1_0_0_1_n_n rfl rfl
    lhs_dotC_0 lhs_dotC_1 rhs_dotC_0 rhs_dotC_1 _ _ n m).trans ?_
  refine Finset.sum_congr rfl fun j _ => ?_
  rw [truncf_apply, truncf_apply, shapeCast_1ab_ab_apply, addf_apply, broadcastTo_1b_ab_apply]
  refine congrArg (fun t => v3 (ix3 (0 : Fin 1) n j) * (t + v12 (ix2 (0 : Fin 1) m))) ?_
  refine (Ideal.matmul_constant_zero_apply _ none _ _ (ix2 j m)).trans ?_
  refine (Cert.LibPlainDot.sum_plain (M := 512) (K := 256) (N := 256) dot_S512x256_S256x256_S512x256_1_0_0_1_n_n rfl rfl
    lhs_dotB_0 lhs_dotB_1 rhs_dotB_0 rhs_dotB_1 _ _ j m).trans ?_
  refine Finset.sum_congr rfl fun d _ => ?_
  rw [truncf_apply, truncf_apply, shapeCast_1ab_ab_apply]

theorem pay7_apply (v3 : Vec Ideal S1x2048x512 .f32) (v24 : Vec Ideal S2048x1 .f32) (n : Fin 2048) :
    k0_pay7 v3 v24 (ix2 n (0 : Fin 1)) = v24 (ix2 n (0 : Fin 1)) + ∑ j : Fin 512, v3 (ix3 (0 : Fin 1) n j) := by
  unfold k0_pay7 k0_pay5
  simp only [shapeCast_self]
  rw [addf_apply]
  refine congrArg (v24 (ix2 n (0 : Fin 1)) + ·) ?_
  refine (shapeCast_a_a1_apply _ _ n (0 : Fin 1)).trans ?_
  refine (Ideal.multiReduction_add_single _ 0x00000000#32 reduces_S2048x512_S2048 (.inl rfl) rfl (ix1 n)).trans ?_
  show ∑ j : Fin 512, _ = _
  refine Finset.sum_congr rfl fun j _ => ?_
  have e : reduces_S2048x512_S2048.lift (ix1 n) j = ix2 n j := funext fun a => Fin.ext (by
    match a with
    | ⟨0, _⟩ => rfl
    | ⟨1, _⟩ => rfl)
  rw [e, shapeCast_1ab_ab_apply]

theorem pay1_apply (v34 : Vec Ideal S2048x1 .f32) (v37 : Vec Ideal S2048x256 .f32) (v38 : Vec Ideal S2048x256 .f32) (n : Fin 2048) (m : Fin 256) :
    k0_pay1 v34 v37 v38 (ix3 (0 : Fin 1) n m) = max (Ideal.div (v37 (ix2 n m) + v38 (ix2 n m)) (v34 (ix2 n (0 : Fin 1)) + Cert.Spec.oneE)) Cert.Spec.zeroE := by
  unfold k0_pay1
  rw [shapeCast_ab_1ab_apply, maximumf_apply, divf_apply, addf_apply, Cert.LibPlainDot.broadcastTo_a1_ab_apply, addf_apply]
  rfl

end Cert.KernelIdeal.PayRead

end
-- ==== Proof.KExpr.lean ====
import proofs.«139723_j51213190037828_1_alg».proof.Proof.KForm

noncomputable section

open scoped BigOperators

namespace Cert.Spec

open Idealize.ShloMosaic Idealize.ShloMosaic.ValueIdx

abbrev SM : Shape := ⟨2, ![256, 256]⟩
abbrev SR : Shape := ⟨2, ![1, 256]⟩

def kdense (x : SX.Idx → EReal) (w : SM.Idx → EReal) (bi : SR.Idx → EReal) (b : Fin 8) (n : Fin 2048) (m : Fin 256) : EReal :=
  (∑ d : Fin 256, x (ix3 b n d) * w (ix2 d m)) + bi (ix2 (0 : Fin 1) m)

def kpartA (x : SX.Idx → EReal) (adj : SA.Idx → EReal) (wr : SM.Idx → EReal) (wrb : SR.Idx → EReal)
    (b : Fin 8) (n : Fin 2048) (m : Fin 256) (q : Fin 4) : EReal :=
  ∑ j : Fin 512, adj (ix3 b n (nodeOf q j)) * kdense x wr wrb b (nodeOf q j) m

def kacc (x : SX.Idx → EReal) (adj : SA.Idx → EReal) (wr : SM.Idx → EReal) (wrb : SR.Idx → EReal)
    (b : Fin 8) (n : Fin 2048) (m : Fin 256) : ℕ → EReal
  | 0 => zeroE + kpartA x adj wr wrb b n m 0
  | k + 1 => kacc x adj wr wrb b n m k + (if h : k + 1 < 4 then kpartA x adj wr wrb b n m ⟨k + 1, h⟩ else 0)

def kden (adj : SA.Idx → EReal) (b : Fin 8) (n : Fin 2048) : ℕ → EReal
  | 0 => zeroE + partD adj b n 0
  | k + 1 => kden adj b n k + (if h : k + 1 < 4 then partD adj b n ⟨k + 1, h⟩ else 0)

def kexpr (x : SX.Idx → EReal) (adj : SA.Idx → EReal) (wr : SM.Idx → EReal) (wrb : SR.Idx → EReal) (w0 : SM.Idx → EReal) (w0b : SR.Idx → EReal)
    (b : Fin 8) (n : Fin 2048) (m : Fin 256) : EReal :=
  max (Ideal.div (kacc x adj wr wrb b n m 3 + kdense x w0 w0b b n m) (kden adj b n 3 + oneE)) zeroE

theorem kdense_eq_dense (x : SX.Idx → EReal) (w : SM.Idx → EReal) (bi : SR.Idx → EReal) (W : SW.Idx → EReal) (B : SB.Idx → EReal) (l : Fin 2)
    (hw : ∀ d m, w (ix2 d m) = W (ix3 l m d)) (hb : ∀ m, bi (ix2 (0 : Fin 1) m) = B (ix2 l m))
    (b : Fin 8) (n : Fin 2048) (m : Fin 256) : kdense x w bi b n m = dense x W B l b n m := by
  unfold kdense dense
  rw [hb m]
  exact congrArg (· + B (ix2 l m)) (Finset.sum_congr rfl fun d _ => by rw [hw d m])

theorem kpartA_eq_partA (x : SX.Idx → EReal) (adj : SA.Idx → EReal) (wr : SM.Idx → EReal) (wrb : SR.Idx → EReal)
    (Wr : SW.Idx → EReal) (Br : SB.Idx → EReal) (l : Fin 2)
    (hwr : ∀ d m, wr (ix2 d m) = Wr (ix3 l m d)) (hwrb : ∀ m, wrb (ix2 (0 : Fin 1) m) = Br (ix2 l m))
    (b : Fin 8) (n : Fin 2048) (m : Fin 256) (q : Fin 4) :
    kpartA x adj wr wrb b n m q = partA x adj Wr Br l b n m q := by
  unfold kpartA partA
  exact Finset.sum_congr rfl fun j _ => by rw [kdense_eq_dense x wr wrb Wr Br l hwr hwrb]

theorem kacc_three (x : SX.Idx → EReal) (adj : SA.Idx → EReal) (wr : SM.Idx → EReal) (wrb : SR.Idx → EReal)
    (b : Fin 8) (n : Fin 2048) (m : Fin 256) :
    kacc x adj wr wrb b n m 3
      = (((zeroE + kpartA x adj wr wrb b n m 0) + kpartA x adj wr wrb b n m 1) + kpartA x adj wr wrb b n m 2)
          + kpartA x adj wr wrb b n m 3 := by
  rfl

theorem kden_three (adj : SA.Idx → EReal) (b : Fin 8) (n : Fin 2048) :
    kden adj b n 3 = (((zeroE + partD adj b n 0) + partD adj b n 1) + partD adj b n 2) + partD adj b n 3 := by
  rfl

theorem kexpr_eq_klayer (x : SX.Idx → EReal) (adj : SA.Idx → EReal) (wr : SM.Idx → EReal) (wrb : SR.Idx → EReal) (w0 : SM.Idx → EReal) (w0b : SR.Idx → EReal)
    (W0 : SW.Idx → EReal) (B0 : SB.Idx → EReal) (Wr : SW.Idx → EReal) (Br : SB.Idx → EReal) (l : Fin 2)
    (hwr : ∀ d m, wr (ix2 d m) = Wr (ix3 l m d)) (hwrb : ∀ m, wrb (ix2 (0 : Fin 1) m) = Br (ix2 l m))
    (hw0 : ∀ d m, w0 (ix2 d m) = W0 (ix3 l m d)) (hw0b : ∀ m, w0b (ix2 (0 : Fin 1) m) = B0 (ix2 l m))
    (b : Fin 8) (n : Fin 2048) (m : Fin 256) :
    kexpr x adj wr wrb w0 w0b b n m = klayer x adj W0 B0 Wr Br l (ix3 b n m) := by
  unfold kexpr klayer
  rw [kacc_three, kden_three, kdense_eq_dense x w0 w0b W0 B0 l hw0 hw0b]
  simp only [kpartA_eq_partA x adj wr wrb Wr Br l hwr hwrb]

end Cert.Spec

end
-- ==== Proof.KI.R0Value.lean ====
import proofs.«139723_j51213190037828_1_alg».proof.Proof.KI.R0Blocks
import proofs.«139723_j51213190037828_1_alg».proof.Proof.KI.PayRead
import proofs.«139723_j51213190037828_1_alg».proof.Proof.KExpr

set_option maxRecDepth 16384

noncomputable section

open scoped BigOperators

namespace Cert.KernelIdeal.R0

open Cert.KernelIdeal Cert.KernelIdeal.Gen Cert.KernelIdeal.Body
open Idealize.ShloMosaic Idealize.ShloMosaic.TcCoe Idealize.ShloMosaic.ValueIdx
open Idealize.ShloMosaic.Pipeline (Dat Cfg Window)

section Recursions
variable (x : Cert.Spec.SX.Idx → EReal) (adj : Cert.Spec.SA.Idx → EReal) (wr : Cert.Spec.SM.Idx → EReal) (wrb : Cert.Spec.SR.Idx → EReal)
  (b : Fin 8) (n : Fin 2048) (m : Fin 256)

theorem kacc_succ (k : ℕ) (h : k + 1 < 4) :
    Cert.Spec.kacc x adj wr wrb b n m (k + 1)
      = Cert.Spec.kacc x adj wr wrb b n m k + Cert.Spec.kpartA x adj wr wrb b n m ⟨k + 1, h⟩ := by
  show Cert.Spec.kacc x adj wr wrb b n m k + (if h' : k + 1 < 4 then Cert.Spec.kpartA x adj wr wrb b n m ⟨k + 1, h'⟩ else 0) = _
  rw [dif_pos h]

theorem kden_succ (k : ℕ) (h : k + 1 < 4) :
    Cert.Spec.kden adj b n (k + 1) = Cert.Spec.kden adj b n k + Cert.Spec.partD adj b n ⟨k + 1, h⟩ := by
  show Cert.Spec.kden adj b n k + (if h' : k + 1 < 4 then Cert.Spec.partD adj b n ⟨k + 1, h'⟩ else 0) = _
  rw [dif_pos h]

theorem kacc_pos (p : ℕ) (h0 : ¬p % 4 = 0) (q : Fin 4) (hq : q.val = p % 4) :
    Cert.Spec.kacc x adj wr wrb b n m (p % 4)
      = Cert.Spec.kacc x adj wr wrb b n m ((p - 1) % 4) + Cert.Spec.kpartA x adj wr wrb b n m q := by
  have h1 : p % 4 = (p - 1) % 4 + 1 := by omega
  have hq' : q = ⟨(p - 1) % 4 + 1, by omega⟩ := Fin.ext (by show q.val = (p - 1) % 4 + 1; omega)
  rw [h1, hq']
  exact kacc_succ x adj wr wrb b n m _ _

theorem kden_pos (p : ℕ) (h0 : ¬p % 4 = 0) (q : Fin 4) (hq : q.val = p % 4) :
    Cert.Spec.kden adj b n (p % 4) = Cert.Spec.kden adj b n ((p - 1) % 4) + Cert.Spec.partD adj b n q := by
  have h1 : p % 4 = (p - 1) % 4 + 1 := by omega
  have hq' : q = ⟨(p - 1) % 4 + 1, by omega⟩ := Fin.ext (by show q.val = (p - 1) % 4 + 1; omega)
  rw [h1, hq']
  exact kden_succ adj b n _ _

end Recursions

variable (V : (c : Dev nD) → (b : Ref sig .tc) → Buf (Elt Ideal) ((c : Thread nD τ).loc b)) (c : Dev nD)

theorem step_acc (t : Fin cfg0.N) (xa : Vec Ideal S2048x256 .f32) (n : Fin 2048) (m : Fin 256) :
    k0_pay6 (adjb V c t) (xk V c t) (wrB V c t) (wrbB V c t) xa (ix2 n m)
      = xa (ix2 n m) + Cert.Spec.kpartA (aX V c) (aAdj V c) (aWr V c) (aWrb V c) (bOf t) n m (kOf t) := by
  rw [PayRead.pay6_apply]
  unfold Cert.Spec.kpartA Cert.Spec.kdense
  refine congrArg (xa (ix2 n m) + ·) (Finset.sum_congr rfl fun j _ => ?_)
  rw [adjb_apply, wrbB_apply]
  refine congrArg (fun s => aAdj V c (ix3 (bOf t) n (Cert.Spec.nodeOf (kOf t) j)) * (s + aWrb V c (ix2 (0 : Fin 1) m))) (Finset.sum_congr rfl fun d _ => ?_)
  rw [xk_apply, wrB_apply]

theorem step_den (t : Fin cfg0.N) (xd : Vec Ideal S2048x1 .f32) (n : Fin 2048) :
    k0_pay7 (adjb V c t) xd (ix2 n (0 : Fin 1))
      = xd (ix2 n (0 : Fin 1)) + Cert.Spec.partD (aAdj V c) (bOf t) n (kOf t) := by
  rw [PayRead.pay7_apply]
  unfold Cert.Spec.partD
  refine congrArg (xd (ix2 n (0 : Fin 1)) + ·) (Finset.sum_congr rfl fun j _ => ?_)
  rw [adjb_apply]

theorem self_val (t : Fin cfg0.N) (n : Fin 2048) (m : Fin 256) :
    k0_pay4 (xn V c t) (w0B V c t) (w0bB V c t) (ix2 n m)
      = Cert.Spec.kdense (aX V c) (aW0 V c) (aW0b V c) (bOf t) n m := by
  rw [PayRead.pay4_apply]
  unfold Cert.Spec.kdense
  rw [w0bB_apply]
  refine congrArg (· + aW0b V c (ix2 (0 : Fin 1) m)) (Finset.sum_congr rfl fun d _ => ?_)
  rw [xn_apply, w0B_apply]

theorem st_inv_aux (p : ℕ) : ∀ (hp : p < cfg0.N) (n : Fin 2048) (m : Fin 256),
    (stAt V c p hp).2.1 (ix2 n m) = Cert.Spec.kacc (aX V c) (aAdj V c) (aWr V c) (aWrb V c) (bOf ⟨p, hp⟩) n m (p % 4)
    ∧ (stAt V c p hp).2.2.1 (ix2 n m) = Cert.Spec.kdense (aX V c) (aW0 V c) (aW0b V c) (bOf ⟨p, hp⟩) n m
    ∧ (stAt V c p hp).2.2.2 (ix2 n (0 : Fin 1)) = Cert.Spec.kden (aAdj V c) (bOf ⟨p, hp⟩) n (p % 4) := by
  induction p using Nat.strong_induction_on with
  | _ p ih =>
    intro hp n m
    by_cases h0 : p % 4 = 0
    ·
      have hk : kOf ⟨p, hp⟩ = (0 : Fin 4) := Fin.ext h0
      rw [stAt_first V c ⟨p, hp⟩ h0]
      unfold firstAt
      dsimp only
      refine ⟨?_, ?_, ?_⟩
      · rw [accFirst_eq, step_acc V c ⟨p, hp⟩, PayRead.pay2_apply, h0, hk]
        rfl
      · rw [selfFirst_eq]
        exact self_val V c ⟨p, hp⟩ n m
      · rw [denFirst_eq, step_den V c ⟨p, hp⟩, PayRead.pay3_apply, h0, hk]
        rfl
    ·
      have hlt : p - 1 < cfg0.N := Nat.lt_of_le_of_lt (Nat.sub_le _ _) hp
      have hb : bOf ⟨p - 1, hlt⟩ = bOf ⟨p, hp⟩ := Fin.ext (by simp only [bOf]; omega)
      obtain ⟨ia, is, id⟩ := ih (p - 1) (by omega) hlt n m
      rw [hb] at ia is id
      by_cases h1 : p % 4 = 3
      · rw [stAt_last V c ⟨p, hp⟩ h0 h1]
        unfold lastAt
        dsimp only
        refine ⟨?_, ?_, ?_⟩
        · rw [accLast_eq, step_acc V c ⟨p, hp⟩, ia]
          exact (kacc_pos _ _ _ _ _ _ _ p h0 (kOf ⟨p, hp⟩) rfl).symm
        · exact is
        · rw [denLast_eq, step_den V c ⟨p, hp⟩, id]
          exact (kden_pos _ _ _ p h0 (kOf ⟨p, hp⟩) rfl).symm
      · rw [stAt_mid V c ⟨p, hp⟩ h0 h1]
        unfold midAt
        dsimp only
        refine ⟨?_, ?_, ?_⟩
        · rw [accMid_eq, step_acc V c ⟨p, hp⟩, ia]
          exact (kacc_pos _ _ _ _ _ _ _ p h0 (kOf ⟨p, hp⟩) rfl).symm
        · exact is
        · rw [denMid_eq, step_den V c ⟨p, hp⟩, id]
          exact (kden_pos _ _ _ p h0 (kOf ⟨p, hp⟩) rfl).symm

theorem st_inv (t : Fin cfg0.N) (n : Fin 2048) (m : Fin 256) :
    (stAt V c t.val t.isLt).2.1 (ix2 n m) = Cert.Spec.kacc (aX V c) (aAdj V c) (aWr V c) (aWrb V c) (bOf t) n m (t.val % 4)
    ∧ (stAt V c t.val t.isLt).2.2.1 (ix2 n m) = Cert.Spec.kdense (aX V c) (aW0 V c) (aW0b V c) (bOf t) n m
    ∧ (stAt V c t.val t.isLt).2.2.2 (ix2 n (0 : Fin 1)) = Cert.Spec.kden (aAdj V c) (bOf t) n (t.val % 4) :=
  st_inv_aux V c t.val t.isLt n m

theorem out_at (t : Fin cfg0.N) (h : t.val % 4 = 3) (n : Fin 2048) (m : Fin 256) :
    (stAt V c t.val t.isLt).1 (ix3 (0 : Fin 1) n m)
      = Cert.Spec.kexpr (aX V c) (aAdj V c) (aWr V c) (aWrb V c) (aW0 V c) (aW0b V c) (bOf t) n m := by
  have h0 : ¬t.val % 4 = 0 := by omega
  obtain ⟨ha, hs, hd⟩ := st_inv V c t n m
  rw [stAt_last V c t h0 h] at ha hs hd ⊢
  unfold lastAt at ha hs hd ⊢
  dsimp only at ha hs hd ⊢
  rw [accLast_eq] at ha
  rw [denLast_eq] at hd
  rw [outLast_eq, PayRead.pay1_apply, ha, hs, hd, h]
  rfl

theorem out_value : (dat V c).arrAt 7 cfg0.N
    = fun i => Cert.Spec.kexpr (aX V c) (aAdj V c) (aWr V c) (aWrb V c) (aW0 V c) (aW0b V c) (i 0) (i 1) (i 2) :=
  arrAt_out V c _ (fun t h n m => out_at V c t h n m)

end Cert.KernelIdeal.R0

end
-- ==== Proof.KI.R1Blocks.lean ====
import proofs.«139723_j51213190037828_1_alg».proof.Proof.KI.R1Dat
import proofs.«139723_j51213190037828_1_alg».proof.Proof.KForm
import Idealize.ShloMosaic.Lib.Pipeline.Value
import Idealize.ShloMosaic.Lib.ValueIdx

set_option maxRecDepth 16384

noncomputable section

namespace Cert.KernelIdeal.R1

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

def bOf (t : Fin cfg1.N) : Fin 8 := ⟨t.val / 4, by have := t.isLt; have h : cfg1.N = 32 := N_1; omega⟩
def kOf (t : Fin cfg1.N) : Fin 4 := ⟨t.val % 4, by omega⟩

theorem idx_facts0 : ∀ t : Fin cfg1.N, win1_0.index t (0 : Fin 3) = t.val / 4 ∧ win1_0.index t (1 : Fin 3) = t.val % 4 ∧ win1_0.index t (2 : Fin 3) = 0 :=
  (by decide +kernel : ∀ t : Fin grid1.N, _)

theorem idx_facts1 : ∀ t : Fin cfg1.N, win1_1.index t (0 : Fin 3) = t.val / 4 ∧ win1_1.index t (1 : Fin 3) = 0 ∧ win1_1.index t (2 : Fin 3) = 0 :=
  (by decide +kernel : ∀ t : Fin grid1.N, _)

theorem idx_facts2 : ∀ t : Fin cfg1.N, win1_2.index t (0 : Fin 3) = t.val / 4 ∧ win1_2.index t (1 : Fin 3) = 0 ∧ win1_2.index t (2 : Fin 3) = t.val % 4 :=
  (by decide +kernel : ∀ t : Fin grid1.N, _)

theorem idx_facts3 : ∀ t : Fin cfg1.N, win1_3.index t (0 : Fin 2) = 0 ∧ win1_3.index t (1 : Fin 2) = 0 :=
  (by decide +kernel : ∀ t : Fin grid1.N, _)
theorem idx_facts4 : ∀ t : Fin cfg1.N, win1_4.index t (0 : Fin 2) = 0 ∧ win1_4.index t (1 : Fin 2) = 0 :=
  (by decide +kernel : ∀ t : Fin grid1.N, _)
theorem idx_facts5 : ∀ t : Fin cfg1.N, win1_5.index t (0 : Fin 2) = 0 ∧ win1_5.index t (1 : Fin 2) = 0 :=
  (by decide +kernel : ∀ t : Fin grid1.N, _)
theorem idx_facts6 : ∀ t : Fin cfg1.N, win1_6.index t (0 : Fin 2) = 0 ∧ win1_6.index t (1 : Fin 2) = 0 :=
  (by decide +kernel : ∀ t : Fin grid1.N, _)

theorem idx_facts7 : ∀ t : Fin cfg1.N, win1_7.index t (0 : Fin 3) = t.val / 4 ∧ win1_7.index t (1 : Fin 3) = 0 ∧ win1_7.index t (2 : Fin 3) = 0 :=
  (by decide +kernel : ∀ t : Fin grid1.N, _)

abbrev xk (c : Dev nD) (t : Fin cfg1.N) : Vec F S1x512x256 .f32 := (ins V c t).x0
abbrev xn (c : Dev nD) (t : Fin cfg1.N) : Vec F S1x2048x256 .f32 := (ins V c t).x1
abbrev adjb (c : Dev nD) (t : Fin cfg1.N) : Vec F S1x2048x512 .f32 := (ins V c t).x2
abbrev wrB (c : Dev nD) (t : Fin cfg1.N) : Vec F S256x256 .f32 := (ins V c t).x3
abbrev wrbB (c : Dev nD) (t : Fin cfg1.N) : Vec F S1x256 .f32 := (ins V c t).x4
abbrev w0B (c : Dev nD) (t : Fin cfg1.N) : Vec F S256x256 .f32 := (ins V c t).x5
abbrev w0bB (c : Dev nD) (t : Fin cfg1.N) : Vec F S1x256 .f32 := (ins V c t).x6
abbrev aX (c : Dev nD) : Vec F S8x2048x256 .f32 := V c (Pipeline.arrRef spec1 0)
abbrev aAdj (c : Dev nD) : Vec F S8x2048x2048 .f32 := V c (Pipeline.arrRef spec1 2)
abbrev aWr (c : Dev nD) : Vec F S256x256 .f32 := V c (Pipeline.arrRef spec1 3)
abbrev aWrb (c : Dev nD) : Vec F S1x256 .f32 := V c (Pipeline.arrRef spec1 4)
abbrev aW0 (c : Dev nD) : Vec F S256x256 .f32 := V c (Pipeline.arrRef spec1 5)
abbrev aW0b (c : Dev nD) : Vec F S1x256 .f32 := V c (Pipeline.arrRef spec1 6)

theorem xk_apply (c : Dev nD) (t : Fin cfg1.N) (j : Fin 512) (d : Fin 256) :
    xk V c t (ix3 (0 : Fin 1) j d) = aX V c (ix3 (bOf t) (Cert.Spec.nodeOf (kOf t) j) d) := by
  obtain ⟨e0, e1, e2⟩ := idx_facts0 t
  show V c (Pipeline.arrRef spec1 0) (((cfg1.win 0).blk t).view.emb (ix3 (0 : Fin 1) j d)) = V c (Pipeline.arrRef spec1 0) (ix3 (bOf t) (Cert.Spec.nodeOf (kOf t) j) d)
  refine congrArg _ (funext fun a => Fin.ext ?_)
  match a with
  | ⟨0, _⟩ => show win1_0.index t (0 : Fin 3) * 1 + 1 * (0 : Fin 1).val = t.val / 4; rw [e0]; show t.val / 4 * 1 + 1 * 0 = t.val / 4; omega
  | ⟨1, _⟩ => show win1_0.index t (1 : Fin 3) * 512 + 1 * j.val = t.val % 4 * 512 + j.val; rw [e1]; omega
  | ⟨2, _⟩ => show win1_0.index t (2 : Fin 3) * 256 + 1 * d.val = d.val; rw [e2]; omega
theorem xn_apply (c : Dev nD) (t : Fin cfg1.N) (n : Fin 2048) (d : Fin 256) :
    xn V c t (ix3 (0 : Fin 1) n d) = aX V c (ix3 (bOf t) n d) := by
  obtain ⟨e0, e1, e2⟩ := idx_facts1 t
  show V c (Pipeline.arrRef spec1 1) (((cfg1.win 1).blk t).view.emb (ix3 (0 : Fin 1) n d)) = V c (Pipeline.arrRef spec1 0) (ix3 (bOf t) n d)
  refine congrArg _ (funext fun a => Fin.ext ?_)
  match a with
  | ⟨0, _⟩ => show win1_1.index t (0 : Fin 3) * 1 + 1 * (0 : Fin 1).val = t.val / 4; rw [e0]; show t.val / 4 * 1 + 1 * 0 = t.val / 4; omega
  | ⟨1, _⟩ => show win1_1.index t (1 : Fin 3) * 2048 + 1 * n.val = n.val; rw [e1]; omega
  | ⟨2, _⟩ => show win1_1.index t (2 : Fin 3) * 256 + 1 * d.val = d.val; rw [e2]; omega
theorem adjb_apply (c : Dev nD) (t : Fin cfg1.N) (n : Fin 2048) (j : Fin 512) :
    adjb V c t (ix3 (0 : Fin 1) n j) = aAdj V c (ix3 (bOf t) n (Cert.Spec.nodeOf (kOf t) j)) := by
  obtain ⟨e0, e1, e2⟩ := idx_facts2 t
  show V c (Pipeline.arrRef spec1 2) (((cfg1.win 2).blk t).view.emb (ix3 (0 : Fin 1) n j)) = V c (Pipeline.arrRef spec1 2) (ix3 (bOf t) n (Cert.Spec.nodeOf (kOf t) j))
  refine congrArg _ (funext fun a => Fin.ext ?_)
  match a with
  | ⟨0, _⟩ => show win1_2.index t (0 : Fin 3) * 1 + 1 * (0 : Fin 1).val = t.val / 4; rw [e0]; show t.val / 4 * 1 + 1 * 0 = t.val / 4; omega
  | ⟨1, _⟩ => show win1_2.index t (1 : Fin 3) * 2048 + 1 * n.val = n.val; rw [e1]; omega
  | ⟨2, _⟩ => show win1_2.index t (2 : Fin 3) * 512 + 1 * j.val = t.val % 4 * 512 + j.val; rw [e2]; omega
theorem wrB_apply (c : Dev nD) (t : Fin cfg1.N) (d m : Fin 256) : wrB V c t (ix2 d m) = aWr V c (ix2 d m) := by
  obtain ⟨e0, e1⟩ := idx_facts3 t
  show V c (Pipeline.arrRef spec1 3) (((cfg1.win 3).blk t).view.emb (ix2 d m)) = V c (Pipeline.arrRef spec1 3) (ix2 d m)
  refine congrArg _ (funext fun a => Fin.ext ?_)
  match a with
  | ⟨0, _⟩ => show win1_3.index t (0 : Fin 2) * 256 + 1 * d.val = d.val; rw [e0]; omega
  | ⟨1, _⟩ => show win1_3.index t (1 : Fin 2) * 256 + 1 * m.val = m.val; rw [e1]; omega
theorem wrbB_apply (c : Dev nD) (t : Fin cfg1.N) (m : Fin 256) : wrbB V c t (ix2 (0 : Fin 1) m) = aWrb V c (ix2 (0 : Fin 1) m) := by
  obtain ⟨e0, e1⟩ := idx_facts4 t
  show V c (Pipeline.arrRef spec1 4) (((cfg1.win 4).blk t).view.emb (ix2 (0 : Fin 1) m)) = V c (Pipeline.arrRef spec1 4) (ix2 (0 : Fin 1) m)
  refine congrArg _ (funext fun a => Fin.ext ?_)
  match a with
  | ⟨0, _⟩ => show win1_4.index t (0 : Fin 2) * 1 + 1 * (0 : Fin 1).val = (0 : Fin 1).val; rw [e0]; omega
  | ⟨1, _⟩ => show win1_4.index t (1 : Fin 2) * 256 + 1 * m.val = m.val; rw [e1]; omega
theorem w0B_apply (c : Dev nD) (t : Fin cfg1.N) (d m : Fin 256) : w0B V c t (ix2 d m) = aW0 V c (ix2 d m) := by
  obtain ⟨e0, e1⟩ := idx_facts5 t
  show V c (Pipeline.arrRef spec1 5) (((cfg1.win 5).blk t).view.emb (ix2 d m)) = V c (Pipeline.arrRef spec1 5) (ix2 d m)
  refine congrArg _ (funext fun a => Fin.ext ?_)
  match a with
  | ⟨0, _⟩ => show win1_5.index t (0 : Fin 2) * 256 + 1 * d.val = d.val; rw [e0]; omega
  | ⟨1, _⟩ => show win1_5.index t (1 : Fin 2) * 256 + 1 * m.val = m.val; rw [e1]; omega
theorem w0bB_apply (c : Dev nD) (t : Fin cfg1.N) (m : Fin 256) : w0bB V c t (ix2 (0 : Fin 1) m) = aW0b V c (ix2 (0 : Fin 1) m) := by
  obtain ⟨e0, e1⟩ := idx_facts6 t
  show V c (Pipeline.arrRef spec1 6) (((cfg1.win 6).blk t).view.emb (ix2 (0 : Fin 1) m)) = V c (Pipeline.arrRef spec1 6) (ix2 (0 : Fin 1) m)
  refine congrArg _ (funext fun a => Fin.ext ?_)
  match a with
  | ⟨0, _⟩ => show win1_6.index t (0 : Fin 2) * 1 + 1 * (0 : Fin 1).val = (0 : Fin 1).val; rw [e0]; omega
  | ⟨1, _⟩ => show win1_6.index t (1 : Fin 2) * 256 + 1 * m.val = m.val; rw [e1]; omega

theorem flush7 : ∀ t : Fin cfg1.N, (cfg1.win 7).flush t = true ↔ t.val % 4 = 3 :=
  (by decide +kernel : ∀ t : Fin grid1.N, win1_7.flush t = true ↔ t.val % 4 = 3)

theorem mem_blk7 (t : Fin cfg1.N) (i : S8x2048x256.Idx) :
    i ∈ ((cfg1.win 7).blk t).view.set ↔ ∀ a : Fin 3, win1_7.index t a * S1x2048x256.size a ≤ (i a).val ∧ (i a).val < win1_7.index t a * S1x2048x256.size a + S1x2048x256.size a := by
  show i ∈ ((View.whole (Pipeline.arrRef spec1 7)).slice (win1_7.rect t)).set ↔ _
  rw [View.set_slice_whole, Rect.mem_set_unit]
  exact Iff.rfl

theorem arrAt_out (c : Dev nD) (G : Vec F S8x2048x256 .f32)
    (hG : ∀ t : Fin cfg1.N, t.val % 4 = 3 → ∀ (n : Fin 2048) (m : Fin 256),
      (stAt V c t.val t.isLt).1 (ix3 (0 : Fin 1) n m) = G (ix3 (bOf t) n m)) :
    (dat V c).arrAt 7 cfg1.N = G := by
  have hN : cfg1.N = 32 := N_1
  refine (dat V c).arrAt_eq_of_cover 7 G (fun t hf => ?_) (fun i => ?_)
  · have h3 : t.val % 4 = 3 := (flush7 t).mp hf
    obtain ⟨e0, e1, e2⟩ := idx_facts7 t
    show (cfg1.win 7).cut (grid1.coords t) ((dat V c).after 7 t) = _
    rw [after_7]
    funext y
    obtain ⟨u, n, m, rfl⟩ : ∃ (u : Fin 1) (n : Fin 2048) (m : Fin 256), y = ix3 u n m := ⟨y 0, y 1, y 2, eq_ix3 y⟩
    obtain rfl : u = (0 : Fin 1) := Subsingleton.elim _ _
    show (stAt V c t.val t.isLt).1 (ix3 (0 : Fin 1) n m) = G (((cfg1.win 7).blk t).view.emb (ix3 (0 : Fin 1) n m))
    rw [hG t h3 n m]
    refine congrArg G (funext fun a => Fin.ext ?_)
    match a with
    | ⟨0, _⟩ => show t.val / 4 = win1_7.index t (0 : Fin 3) * 1 + 1 * (0 : Fin 1).val; rw [e0]; show t.val / 4 = t.val / 4 * 1 + 1 * 0; omega
    | ⟨1, _⟩ => show n.val = win1_7.index t (1 : Fin 3) * 2048 + 1 * n.val; rw [e1]; omega
    | ⟨2, _⟩ => show m.val = win1_7.index t (2 : Fin 3) * 256 + 1 * m.val; rw [e2]; omega
  · have hi0 : (i 0).val < 8 := (i 0).isLt
    have hi1 : (i 1).val < 2048 := (i 1).isLt
    have hi2 : (i 2).val < 256 := (i 2).isLt
    let t : Fin cfg1.N := ⟨4 * (i 0).val + 3, by omega⟩
    have ht : t.val = 4 * (i 0).val + 3 := rfl
    obtain ⟨e0, e1, e2⟩ := idx_facts7 t
    refine ⟨t, (flush7 t).mpr (by omega), ?_⟩
    rw [mem_blk7]
    intro a
    match a with
    | ⟨0, _⟩ => show win1_7.index t (0 : Fin 3) * 1 ≤ (i 0).val ∧ (i 0).val < win1_7.index t (0 : Fin 3) * 1 + 1; rw [e0]; omega
    | ⟨1, _⟩ => show win1_7.index t (1 : Fin 3) * 2048 ≤ (i 1).val ∧ (i 1).val < win1_7.index t (1 : Fin 3) * 2048 + 2048; rw [e1]; omega
    | ⟨2, _⟩ => show win1_7.index t (2 : Fin 3) * 256 ≤ (i 2).val ∧ (i 2).val < win1_7.index t (2 : Fin 3) * 256 + 256; rw [e2]; omega

end Cert.KernelIdeal.R1

end
-- ==== Proof.KI.R1Value.lean ====
import proofs.«139723_j51213190037828_1_alg».proof.Proof.KI.R1Blocks
import proofs.«139723_j51213190037828_1_alg».proof.Proof.KI.PayRead
import proofs.«139723_j51213190037828_1_alg».proof.Proof.KExpr

set_option maxRecDepth 16384

noncomputable section

open scoped BigOperators

namespace Cert.KernelIdeal.R1

open Cert.KernelIdeal Cert.KernelIdeal.Gen Cert.KernelIdeal.Body
open Idealize.ShloMosaic Idealize.ShloMosaic.TcCoe Idealize.ShloMosaic.ValueIdx
open Idealize.ShloMosaic.Pipeline (Dat Cfg Window)

section Recursions
variable (x : Cert.Spec.SX.Idx → EReal) (adj : Cert.Spec.SA.Idx → EReal) (wr : Cert.Spec.SM.Idx → EReal) (wrb : Cert.Spec.SR.Idx → EReal)
  (b : Fin 8) (n : Fin 2048) (m : Fin 256)

theorem kacc_succ (k : ℕ) (h : k + 1 < 4) :
    Cert.Spec.kacc x adj wr wrb b n m (k + 1)
      = Cert.Spec.kacc x adj wr wrb b n m k + Cert.Spec.kpartA x adj wr wrb b n m ⟨k + 1, h⟩ := by
  show Cert.Spec.kacc x adj wr wrb b n m k + (if h' : k + 1 < 4 then Cert.Spec.kpartA x adj wr wrb b n m ⟨k + 1, h'⟩ else 0) = _
  rw [dif_pos h]

theorem kden_succ (k : ℕ) (h : k + 1 < 4) :
    Cert.Spec.kden adj b n (k + 1) = Cert.Spec.kden adj b n k + Cert.Spec.partD adj b n ⟨k + 1, h⟩ := by
  show Cert.Spec.kden adj b n k + (if h' : k + 1 < 4 then Cert.Spec.partD adj b n ⟨k + 1, h'⟩ else 0) = _
  rw [dif_pos h]

theorem kacc_pos (p : ℕ) (h0 : ¬p % 4 = 0) (q : Fin 4) (hq : q.val = p % 4) :
    Cert.Spec.kacc x adj wr wrb b n m (p % 4)
      = Cert.Spec.kacc x adj wr wrb b n m ((p - 1) % 4) + Cert.Spec.kpartA x adj wr wrb b n m q := by
  have h1 : p % 4 = (p - 1) % 4 + 1 := by omega
  have hq' : q = ⟨(p - 1) % 4 + 1, by omega⟩ := Fin.ext (by show q.val = (p - 1) % 4 + 1; omega)
  rw [h1, hq']
  exact kacc_succ x adj wr wrb b n m _ _

theorem kden_pos (p : ℕ) (h0 : ¬p % 4 = 0) (q : Fin 4) (hq : q.val = p % 4) :
    Cert.Spec.kden adj b n (p % 4) = Cert.Spec.kden adj b n ((p - 1) % 4) + Cert.Spec.partD adj b n q := by
  have h1 : p % 4 = (p - 1) % 4 + 1 := by omega
  have hq' : q = ⟨(p - 1) % 4 + 1, by omega⟩ := Fin.ext (by show q.val = (p - 1) % 4 + 1; omega)
  rw [h1, hq']
  exact kden_succ adj b n _ _

end Recursions

variable (V : (c : Dev nD) → (b : Ref sig .tc) → Buf (Elt Ideal) ((c : Thread nD τ).loc b)) (c : Dev nD)

theorem step_acc (t : Fin cfg1.N) (xa : Vec Ideal S2048x256 .f32) (n : Fin 2048) (m : Fin 256) :
    k0_pay6 (adjb V c t) (xk V c t) (wrB V c t) (wrbB V c t) xa (ix2 n m)
      = xa (ix2 n m) + Cert.Spec.kpartA (aX V c) (aAdj V c) (aWr V c) (aWrb V c) (bOf t) n m (kOf t) := by
  rw [PayRead.pay6_apply]
  unfold Cert.Spec.kpartA Cert.Spec.kdense
  refine congrArg (xa (ix2 n m) + ·) (Finset.sum_congr rfl fun j _ => ?_)
  rw [adjb_apply, wrbB_apply]
  refine congrArg (fun s => aAdj V c (ix3 (bOf t) n (Cert.Spec.nodeOf (kOf t) j)) * (s + aWrb V c (ix2 (0 : Fin 1) m))) (Finset.sum_congr rfl fun d _ => ?_)
  rw [xk_apply, wrB_apply]

theorem step_den (t : Fin cfg1.N) (xd : Vec Ideal S2048x1 .f32) (n : Fin 2048) :
    k0_pay7 (adjb V c t) xd (ix2 n (0 : Fin 1))
      = xd (ix2 n (0 : Fin 1)) + Cert.Spec.partD (aAdj V c) (bOf t) n (kOf t) := by
  rw [PayRead.pay7_apply]
  unfold Cert.Spec.partD
  refine congrArg (xd (ix2 n (0 : Fin 1)) + ·) (Finset.sum_congr rfl fun j _ => ?_)
  rw [adjb_apply]

theorem self_val (t : Fin cfg1.N) (n : Fin 2048) (m : Fin 256) :
    k0_pay4 (xn V c t) (w0B V c t) (w0bB V c t) (ix2 n m)
      = Cert.Spec.kdense (aX V c) (aW0 V c) (aW0b V c) (bOf t) n m := by
  rw [PayRead.pay4_apply]
  unfold Cert.Spec.kdense
  rw [w0bB_apply]
  refine congrArg (· + aW0b V c (ix2 (0 : Fin 1) m)) (Finset.sum_congr rfl fun d _ => ?_)
  rw [xn_apply, w0B_apply]

theorem st_inv_aux (p : ℕ) : ∀ (hp : p < cfg1.N) (n : Fin 2048) (m : Fin 256),
    (stAt V c p hp).2.1 (ix2 n m) = Cert.Spec.kacc (aX V c) (aAdj V c) (aWr V c) (aWrb V c) (bOf ⟨p, hp⟩) n m (p % 4)
    ∧ (stAt V c p hp).2.2.1 (ix2 n m) = Cert.Spec.kdense (aX V c) (aW0 V c) (aW0b V c) (bOf ⟨p, hp⟩) n m
    ∧ (stAt V c p hp).2.2.2 (ix2 n (0 : Fin 1)) = Cert.Spec.kden (aAdj V c) (bOf ⟨p, hp⟩) n (p % 4) := by
  induction p using Nat.strong_induction_on with
  | _ p ih =>
    intro hp n m
    by_cases h0 : p % 4 = 0
    ·
      have hk : kOf ⟨p, hp⟩ = (0 : Fin 4) := Fin.ext h0
      rw [stAt_first V c ⟨p, hp⟩ h0]
      unfold firstAt
      dsimp only
      refine ⟨?_, ?_, ?_⟩
      · rw [accFirst_eq, step_acc V c ⟨p, hp⟩, PayRead.pay2_apply, h0, hk]
        rfl
      · rw [selfFirst_eq]
        exact self_val V c ⟨p, hp⟩ n m
      · rw [denFirst_eq, step_den V c ⟨p, hp⟩, PayRead.pay3_apply, h0, hk]
        rfl
    ·
      have hlt : p - 1 < cfg1.N := Nat.lt_of_le_of_lt (Nat.sub_le _ _) hp
      have hb : bOf ⟨p - 1, hlt⟩ = bOf ⟨p, hp⟩ := Fin.ext (by simp only [bOf]; omega)
      obtain ⟨ia, is, id⟩ := ih (p - 1) (by omega) hlt n m
      rw [hb] at ia is id
      by_cases h1 : p % 4 = 3
      · rw [stAt_last V c ⟨p, hp⟩ h0 h1]
        unfold lastAt
        dsimp only
        refine ⟨?_, ?_, ?_⟩
        · rw [accLast_eq, step_acc V c ⟨p, hp⟩, ia]
          exact (kacc_pos _ _ _ _ _ _ _ p h0 (kOf ⟨p, hp⟩) rfl).symm
        · exact is
        · rw [denLast_eq, step_den V c ⟨p, hp⟩, id]
          exact (kden_pos _ _ _ p h0 (kOf ⟨p, hp⟩) rfl).symm
      · rw [stAt_mid V c ⟨p, hp⟩ h0 h1]
        unfold midAt
        dsimp only
        refine ⟨?_, ?_, ?_⟩
        · rw [accMid_eq, step_acc V c ⟨p, hp⟩, ia]
          exact (kacc_pos _ _ _ _ _ _ _ p h0 (kOf ⟨p, hp⟩) rfl).symm
        · exact is
        · rw [denMid_eq, step_den V c ⟨p, hp⟩, id]
          exact (kden_pos _ _ _ p h0 (kOf ⟨p, hp⟩) rfl).symm

theorem st_inv (t : Fin cfg1.N) (n : Fin 2048) (m : Fin 256) :
    (stAt V c t.val t.isLt).2.1 (ix2 n m) = Cert.Spec.kacc (aX V c) (aAdj V c) (aWr V c) (aWrb V c) (bOf t) n m (t.val % 4)
    ∧ (stAt V c t.val t.isLt).2.2.1 (ix2 n m) = Cert.Spec.kdense (aX V c) (aW0 V c) (aW0b V c) (bOf t) n m
    ∧ (stAt V c t.val t.isLt).2.2.2 (ix2 n (0 : Fin 1)) = Cert.Spec.kden (aAdj V c) (bOf t) n (t.val % 4) :=
  st_inv_aux V c t.val t.isLt n m

theorem out_at (t : Fin cfg1.N) (h : t.val % 4 = 3) (n : Fin 2048) (m : Fin 256) :
    (stAt V c t.val t.isLt).1 (ix3 (0 : Fin 1) n m)
      = Cert.Spec.kexpr (aX V c) (aAdj V c) (aWr V c) (aWrb V c) (aW0 V c) (aW0b V c) (bOf t) n m := by
  have h0 : ¬t.val % 4 = 0 := by omega
  obtain ⟨ha, hs, hd⟩ := st_inv V c t n m
  rw [stAt_last V c t h0 h] at ha hs hd ⊢
  unfold lastAt at ha hs hd ⊢
  dsimp only at ha hs hd ⊢
  rw [accLast_eq] at ha
  rw [denLast_eq] at hd
  rw [outLast_eq, PayRead.pay1_apply, ha, hs, hd, h]
  rfl

theorem out_value : (dat V c).arrAt 7 cfg1.N
    = fun i => Cert.Spec.kexpr (aX V c) (aAdj V c) (aWr V c) (aWrb V c) (aW0 V c) (aW0b V c) (i 0) (i 1) (i 2) :=
  arrAt_out V c _ (fun t h n m => out_at V c t h n m)

end Cert.KernelIdeal.R1

end
-- ==== Proof.KI.HostRead.lean ====
import proofs.«139723_j51213190037828_1_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostRead

open Cert.KernelIdeal Cert.KernelIdeal.Gen
open Idealize.ShloMosaic Idealize.ShloMosaic.TcCoe Idealize.ShloMosaic.ValueIdx Idealize.ShloMosaic.StableHlo
open Idealize.SL.Sem

variable {F : FTy → Type} [FloatOps F]
variable (m : (ℓ : Loc nD τ sig) → Buf (Elt F) ℓ) (outs : Outs (F := F)) (c : Dev nD)

section Layout
variable {α : Type}

theorem sliceW (o : Nat) (l : Fin 2) (hl : l.val = o) (X : S2x256x256.Idx → α)
    (h : S2x256x256.Slices ![o, 0, 0] S1x256x256) (d m' : Fin 256) :
    extractStridedSlice S1x256x256 ![o, 0, 0] X h (ix3 (0 : Fin 1) d m') = X (ix3 l d m') :=
  extractStridedSlice_apply _ X h _ _ fun a => match a with
    | ⟨0, _⟩ => by show l.val = o + 0; omega
    | ⟨1, _⟩ => by show d.val = 0 + d.val; omega
    | ⟨2, _⟩ => by show m'.val = 0 + m'.val; omega

theorem sliceB (o : Nat) (l : Fin 2) (hl : l.val = o) (X : S2x1x256.Idx → α)
    (h : S2x1x256.Slices ![o, 0, 0] S1x1x256) (m' : Fin 256) :
    extractStridedSlice S1x1x256 ![o, 0, 0] X h (ix3 (0 : Fin 1) (0 : Fin 1) m') = X (ix3 l (0 : Fin 1) m') :=
  extractStridedSlice_apply _ X h _ _ fun a => match a with
    | ⟨0, _⟩ => by show l.val = o + 0; omega
    | ⟨1, _⟩ => by show 0 = 0 + 0; omega
    | ⟨2, _⟩ => by show m'.val = 0 + m'.val; omega

theorem castB (X : S2x256.Idx → α) (h : S2x256.ShapeCasts S2x1x256) (l : Fin 2) (m' : Fin 256) :
    shapeCast S2x1x256 X h (ix3 l (0 : Fin 1) m') = X (ix2 l m') :=
  shapeCast_apply X h _ _ (by
    rw [Shape.rowMajor_val_three, Shape.rowMajor_val_two]
    show l.val * 256 + m'.val = (l.val * 1 + 0) * 256 + m'.val
    omega)

end Layout

section Terms
variable (V : Valuation τ sig (Elt F))

theorem after0_v0 : (after hostOps0 V main_v0 : S2x256x256.Idx → Elt F .f32)
    = transpose S2x256x256 [0, 2, 1] (V main_arg4) transposes_S2x256x256_S2x256x256_0_2_1 := by
  show after hostOps0 V (Proc.devRef .tc main_v0) = _
  after_results <;> rfl
theorem after0_v1 : (after hostOps0 V main_v1 : S2x256x256.Idx → Elt F .f32)
    = transpose S2x256x256 [0, 2, 1] (V main_arg2) transposes_S2x256x256_S2x256x256_0_2_1 := by
  show after hostOps0 V (Proc.devRef .tc main_v1) = _
  after_results <;> rfl
theorem after0_v2 : (after hostOps0 V main_v2 : S2x1x256.Idx → Elt F .f32)
    = shapeCast S2x1x256 (V main_arg5) shapeCasts_S2x256_S2x1x256 := by
  show after hostOps0 V (Proc.devRef .tc main_v2) = _
  after_results <;> rfl
theorem after0_v3 : (after hostOps0 V main_v3 : S2x1x256.Idx → Elt F .f32)
    = shapeCast S2x1x256 (V main_arg3) shapeCasts_S2x256_S2x1x256 := by
  show after hostOps0 V (Proc.devRef .tc main_v3) = _
  after_results <;> rfl
theorem after0_v5 : (after hostOps0 V main_v5 : S256x256.Idx → Elt F .f32)
    = shapeCast S256x256 (extractStridedSlice S1x256x256 ![0, 0, 0]
        (transpose S2x256x256 [0, 2, 1] (V main_arg4) transposes_S2x256x256_S2x256x256_0_2_1)
        slices_S2x256x256_S1x256x256_0_0_0) shapeCasts_S1x256x256_S256x256 := by
  show after hostOps0 V (Proc.devRef .tc main_v5) = _
  after_results <;> rfl
theorem after0_v9 : (after hostOps0 V main_v9 : S256x256.Idx → Elt F .f32)
    = shapeCast S256x256 (extractStridedSlice S1x256x256 ![0, 0, 0]
        (transpose S2x256x256 [0, 2, 1] (V main_arg2) transposes_S2x256x256_S2x256x256_0_2_1)
        slices_S2x256x256_S1x256x256_0_0_0) shapeCasts_S1x256x256_S256x256 := by
  show after hostOps0 V (Proc.devRef .tc main_v9) = _
  after_results <;> rfl
theorem after0_v7 : (after hostOps0 V main_v7 : S1x256.Idx → Elt F .f32)
    = shapeCast S1x256 (extractStridedSlice S1x1x256 ![0, 0, 0]
        (shapeCast S2x1x256 (V main_arg5) shapeCasts_S2x256_S2x1x256)
        slices_S2x1x256_S1x1x256_0_0_0) shapeCasts_S1x1x256_S1x256 := by
  show after hostOps0 V (Proc.devRef .tc main_v7) = _
  after_results <;> rfl
theorem after0_v11 : (after hostOps0 V main_v11 : S1x256.Idx → Elt F .f32)
    = shapeCast S1x256 (extractStridedSlice S1x1x256 ![0, 0, 0]
        (shapeCast S2x1x256 (V main_arg3) shapeCasts_S2x256_S2x1x256)
        slices_S2x1x256_S1x1x256_0_0_0) shapeCasts_S1x1x256_S1x256 := by
  show after hostOps0 V (Proc.devRef .tc main_v11) = _
  after_results <;> rfl

theorem after1_v14 : (after hostOps1 V main_v14 : S256x256.Idx → Elt F .f32)
    = shapeCast S256x256 (extractStridedSlice S1x256x256 ![1, 0, 0] (V main_v0)
        slices_S2x256x256_S1x256x256_1_0_0) shapeCasts_S1x256x256_S256x256 := by
  show after hostOps1 V (Proc.devRef .tc main_v14) = _
  after_results <;> rfl
theorem after1_v18 : (after hostOps1 V main_v18 : S256x256.Idx → Elt F .f32)
    = shapeCast S256x256 (extractStridedSlice S1x256x256 ![1, 0, 0] (V main_v1)
        slices_S2x256x256_S1x256x256_1_0_0) shapeCasts_S1x256x256_S256x256 := by
  show after hostOps1 V (Proc.devRef .tc main_v18) = _
  after_results <;> rfl
theorem after1_v16 : (after hostOps1 V main_v16 : S1x256.Idx → Elt F .f32)
    = shapeCast S1x256 (extractStridedSlice S1x1x256 ![1, 0, 0] (V main_v2)
        slices_S2x1x256_S1x1x256_1_0_0) shapeCasts_S1x1x256_S1x256 := by
  show after hostOps1 V (Proc.devRef .tc main_v16) = _
  after_results <;> rfl
theorem after1_v20 : (after hostOps1 V main_v20 : S1x256.Idx → Elt F .f32)
    = shapeCast S1x256 (extractStridedSlice S1x1x256 ![1, 0, 0] (V main_v3)
        slices_S2x1x256_S1x1x256_1_0_0) shapeCasts_S1x1x256_S1x256 := by
  show after hostOps1 V (Proc.devRef .tc main_v20) = _
  after_results <;> rfl

theorem after2_v22 : (after hostOps2 V main_v22 : S8x2048x256.Idx → Elt F .f32)
    = addf (V main_arg0) (V main_v21) := by
  show after hostOps2 V (Proc.devRef .tc main_v22) = _
  after_results <;> rfl

end Terms

theorem V1_v0 (l : Fin 2) (d m' : Fin 256) :
    V1 m c main_v0 (ix3 l d m') = m ((c : Thread nD τ).loc main_arg4) (ix3 l m' d) := by
  rw [show (V1 m c main_v0 : S2x256x256.Idx → Elt F .f32) = _ from after0_v0 (V0 m c)]
  exact transpose_ix3_021_apply _ _ l d m'

theorem V1_v1 (l : Fin 2) (d m' : Fin 256) :
    V1 m c main_v1 (ix3 l d m') = m ((c : Thread nD τ).loc main_arg2) (ix3 l m' d) := by
  rw [show (V1 m c main_v1 : S2x256x256.Idx → Elt F .f32) = _ from after0_v1 (V0 m c)]
  exact transpose_ix3_021_apply _ _ l d m'

theorem V1_v2 (l : Fin 2) (m' : Fin 256) :
    V1 m c main_v2 (ix3 l (0 : Fin 1) m') = m ((c : Thread nD τ).loc main_arg5) (ix2 l m') := by
  rw [show (V1 m c main_v2 : S2x1x256.Idx → Elt F .f32) = _ from after0_v2 (V0 m c)]
  exact castB _ _ l m'

theorem V1_v3 (l : Fin 2) (m' : Fin 256) :
    V1 m c main_v3 (ix3 l (0 : Fin 1) m') = m ((c : Thread nD τ).loc main_arg3) (ix2 l m') := by
  rw [show (V1 m c main_v3 : S2x1x256.Idx → Elt F .f32) = _ from after0_v3 (V0 m c)]
  exact castB _ _ l m'

theorem V1_v5 (d m' : Fin 256) :
    V1 m c main_v5 (ix2 d m') = m ((c : Thread nD τ).loc main_arg4) (ix3 (0 : Fin 2) m' d) := by
  rw [show (V1 m c main_v5 : S256x256.Idx → Elt F .f32) = _ from after0_v5 (V0 m c)]
  rw [shapeCast_1ab_ab_apply, sliceW 0 (0 : Fin 2) rfl]
  exact transpose_ix3_021_apply _ _ _ d m'
theorem V1_v9 (d m' : Fin 256) :
    V1 m c main_v9 (ix2 d m') = m ((c : Thread nD τ).loc main_arg2) (ix3 (0 : Fin 2) m' d) := by
  rw [show (V1 m c main_v9 : S256x256.Idx → Elt F .f32) = _ from after0_v9 (V0 m c)]
  rw [shapeCast_1ab_ab_apply, sliceW 0 (0 : Fin 2) rfl]
  exact transpose_ix3_021_apply _ _ _ d m'
theorem V1_v7 (m' : Fin 256) :
    V1 m c main_v7 (ix2 (0 : Fin 1) m') = m ((c : Thread nD τ).loc main_arg5) (ix2 (0 : Fin 2) m') := by
  rw [show (V1 m c main_v7 : S1x256.Idx → Elt F .f32) = _ from after0_v7 (V0 m c)]
  rw [shapeCast_1ab_ab_apply, sliceB 0 (0 : Fin 2) rfl]
  exact castB _ _ _ m'
theorem V1_v11 (m' : Fin 256) :
    V1 m c main_v11 (ix2 (0 : Fin 1) m') = m ((c : Thread nD τ).loc main_arg3) (ix2 (0 : Fin 2) m') := by
  rw [show (V1 m c main_v11 : S1x256.Idx → Elt F .f32) = _ from after0_v11 (V0 m c)]
  rw [shapeCast_1ab_ab_apply, sliceB 0 (0 : Fin 2) rfl]
  exact castB _ _ _ m'
theorem V1_arg0 : V1 m c main_arg0 = m ((c : Thread nD τ).loc main_arg0) :=
  (V1_of m c main_arg0 (by decide)).trans rfl
theorem V1_arg1 : V1 m c main_arg1 = m ((c : Thread nD τ).loc main_arg1) :=
  (V1_of m c main_arg1 (by decide)).trans rfl

theorem V2_v0 : V2 m outs c main_v0 = V1 m c main_v0 := V2_of m outs c main_v0 (by decide)
theorem V2_v1 : V2 m outs c main_v1 = V1 m c main_v1 := V2_of m outs c main_v1 (by decide)
theorem V2_v2 : V2 m outs c main_v2 = V1 m c main_v2 := V2_of m outs c main_v2 (by decide)
theorem V2_v3 : V2 m outs c main_v3 = V1 m c main_v3 := V2_of m outs c main_v3 (by decide)

theorem V3_v14 (d m' : Fin 256) :
    V3 m outs c main_v14 (ix2 d m') = m ((c : Thread nD τ).loc main_arg4) (ix3 (1 : Fin 2) m' d) := by
  rw [show (V3 m outs c main_v14 : S256x256.Idx → Elt F .f32) = _ from after1_v14 (V2 m outs c)]
  rw [shapeCast_1ab_ab_apply, sliceW 1 (1 : Fin 2) rfl, V2_v0]
  exact V1_v0 m c 1 d m'
theorem V3_v18 (d m' : Fin 256) :
    V3 m outs c main_v18 (ix2 d m') = m ((c : Thread nD τ).loc main_arg2) (ix3 (1 : Fin 2) m' d) := by
  rw [show (V3 m outs c main_v18 : S256x256.Idx → Elt F .f32) = _ from after1_v18 (V2 m outs c)]
  rw [shapeCast_1ab_ab_apply, sliceW 1 (1 : Fin 2) rfl, V2_v1]
  exact V1_v1 m c 1 d m'
theorem V3_v16 (m' : Fin 256) :
    V3 m outs c main_v16 (ix2 (0 : Fin 1) m') = m ((c : Thread nD τ).loc main_arg5) (ix2 (1 : Fin 2) m') := by
  rw [show (V3 m outs c main_v16 : S1x256.Idx → Elt F .f32) = _ from after1_v16 (V2 m outs c)]
  rw [shapeCast_1ab_ab_apply, sliceB 1 (1 : Fin 2) rfl, V2_v2]
  exact V1_v2 m c 1 m'
theorem V3_v20 (m' : Fin 256) :
    V3 m outs c main_v20 (ix2 (0 : Fin 1) m') = m ((c : Thread nD τ).loc main_arg3) (ix2 (1 : Fin 2) m') := by
  rw [show (V3 m outs c main_v20 : S1x256.Idx → Elt F .f32) = _ from after1_v20 (V2 m outs c)]
  rw [shapeCast_1ab_ab_apply, sliceB 1 (1 : Fin 2) rfl, V2_v3]
  exact V1_v3 m c 1 m'

theorem V3_v12 : V3 m outs c main_v12 = outs 2 main_v12 c :=
  (V3_of m outs c main_v12 (by decide)).trans (Function.update_self ..)
theorem V3_arg1 : V3 m outs c main_arg1 = m ((c : Thread nD τ).loc main_arg1) :=
  (V3_of m outs c main_arg1 (by decide)).trans <| (V2_of m outs c main_arg1 (by decide)).trans <| V1_arg1 m c

theorem V5_v22 : V5 m outs c main_v22 = addf (m ((c : Thread nD τ).loc main_arg0)) (outs 4 main_v21 c) := by
  have h0 : V4 m outs c main_arg0 = m ((c : Thread nD τ).loc main_arg0) :=
    (V4_of m outs c main_arg0 (by decide)).trans <| (V3_of m outs c main_arg0 (by decide)).trans <|
      (V2_of m outs c main_arg0 (by decide)).trans <| V1_arg0 m c
  have h1 : V4 m outs c main_v21 = outs 4 main_v21 c := Function.update_self ..
  rw [show (V5 m outs c main_v22 : S8x2048x256.Idx → Elt F .f32) = _ from after2_v22 (V4 m outs c), h0, h1]

end Cert.KernelIdeal.HostRead

end
-- ==== Proof.KI.Bridge.lean ====
import proofs.«139723_j51213190037828_1_alg».proof.Proof.KI.R0Value
import proofs.«139723_j51213190037828_1_alg».proof.Proof.KI.R1Value
import proofs.«139723_j51213190037828_1_alg».proof.Proof.KI.HostRead
import proofs.«139723_j51213190037828_1_alg».proof.Proof.KExpr
import proofs.«139723_j51213190037828_1_alg».proof.Proof.KForm
import Idealize.ShloMosaic.Lib.ValueIdx

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL.Sem

theorem kexpr_layer (x : Cert.Spec.SX.Idx → EReal) (adj : Cert.Spec.SA.Idx → EReal)
    (wr : Cert.Spec.SM.Idx → EReal) (wrb : Cert.Spec.SR.Idx → EReal) (w0 : Cert.Spec.SM.Idx → EReal) (w0b : Cert.Spec.SR.Idx → EReal)
    (W0 : Cert.Spec.SW.Idx → EReal) (B0 : Cert.Spec.SB.Idx → EReal) (Wr : Cert.Spec.SW.Idx → EReal) (Br : Cert.Spec.SB.Idx → EReal) (l : Fin 2)
    (hwr : ∀ d m, wr (ix2 d m) = Wr (ix3 l m d)) (hwrb : ∀ m, wrb (ix2 (0 : Fin 1) m) = Br (ix2 l m))
    (hw0 : ∀ d m, w0 (ix2 d m) = W0 (ix3 l m d)) (hw0b : ∀ m, w0b (ix2 (0 : Fin 1) m) = B0 (ix2 l m)) :
    (fun i : Cert.Spec.SX.Idx => Cert.Spec.kexpr x adj wr wrb w0 w0b (i 0) (i 1) (i 2)) = Cert.Spec.layer x adj W0 B0 Wr Br l := by
  funext i
  obtain ⟨b, n, k, rfl⟩ : ∃ (b : Fin 8) (n : Fin 2048) (k : Fin 256), i = ix3 b n k := ⟨i 0, i 1, i 2, eq_ix3 i⟩
  show Cert.Spec.kexpr x adj wr wrb w0 w0b b n k = _
  rw [Cert.Spec.kexpr_eq_klayer x adj wr wrb w0 w0b W0 B0 Wr Br l hwr hwrb hw0 hw0b b n k, Cert.Spec.klayer_eq_layer]

variable (m : (ℓ : Loc nD τ sig) → Buf (Elt Ideal) ℓ) (c : Dev nD)

theorem layer0 : (R0.dat (fun c b => Gen.V1 m c b) c).arrAt 7 cfg0.N
    = Cert.Spec.layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) 0 := by
  rw [R0.out_value]
  have hx : R0.aX (fun c b => Gen.V1 m c b) c = m ((c : Thread nD τ).loc main_arg0) := HostRead.V1_arg0 m c
  have ha : R0.aAdj (fun c b => Gen.V1 m c b) c = m ((c : Thread nD τ).loc main_arg1) := HostRead.V1_arg1 m c
  rw [hx, ha]
  exact kexpr_layer _ _ _ _ _ _ _ _ _ _ 0 (HostRead.V1_v5 m c) (HostRead.V1_v7 m c) (HostRead.V1_v9 m c) (HostRead.V1_v11 m c)

theorem layer1 (outs : Gen.Outs (F := Ideal)) (h12 : outs 2 main_v12 c = (R0.dat (fun c b => Gen.V1 m c b) c).arrAt 7 cfg0.N) :
    (R1.dat (fun c b => Gen.V3 m outs c b) c).arrAt 7 cfg1.N
    = Cert.Spec.layer (Cert.Spec.layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) 0)
        (m ((c : Thread nD τ).loc main_arg1)) (m ((c : Thread nD τ).loc main_arg2))
        (m ((c : Thread nD τ).loc main_arg3)) (m ((c : Thread nD τ).loc main_arg4)) (m ((c : Thread nD τ).loc main_arg5)) 1 := by
  rw [R1.out_value]
  have hx : R1.aX (fun c b => Gen.V3 m outs c b) c
      = Cert.Spec.layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) 0 :=
    (HostRead.V3_v12 m outs c).trans (h12.trans (layer0 m c))
  have ha : R1.aAdj (fun c b => Gen.V3 m outs c b) c = m ((c : Thread nD τ).loc main_arg1) := HostRead.V3_arg1 m outs c
  rw [hx, ha]
  exact kexpr_layer _ _ _ _ _ _ _ _ _ _ 1 (HostRead.V3_v14 m outs c) (HostRead.V3_v16 m outs c) (HostRead.V3_v18 m outs c) (HostRead.V3_v20 m outs c)

theorem result (outs : Gen.Outs (F := Ideal)) (h12 : outs 2 main_v12 c = (R0.dat (fun c b => Gen.V1 m c b) c).arrAt 7 cfg0.N)
    (h21 : outs 4 main_v21 c = (R1.dat (fun c b => Gen.V3 m outs c b) c).arrAt 7 cfg1.N) :
    Gen.V5 m outs c main_v22
    = Cert.Spec.net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [HostRead.V5_v22, h21, layer1 m c outs h12]
  unfold Cert.Spec.net
  funext i
  rfl

end Cert.KernelIdeal.Bridge

end
-- ==== Proof.RefSide.lean ====
import proofs.«139723_j51213190037828_1_alg».proof.Proof.Gen.ReferenceIdeal.Read
import proofs.«139723_j51213190037828_1_alg».proof.Proof.Spec
import Idealize.ShloMosaic.Lib.ValueIdx
import Idealize.ShloMosaic.PureOps.Ideal
import Mathlib.Algebra.BigOperators.Group.Finset.Basic

noncomputable section

open scoped BigOperators

namespace Cert.RefSide

open Idealize.ShloMosaic Idealize.ShloMosaic.ValueIdx Cert.ReferenceIdeal.Read

theorem w_v5 (w : (⟨Cert.ReferenceIdeal.S2x256x256, .f32⟩ : BufTy).Contents (Elt Ideal)) (j : Cert.ReferenceIdeal.S256x256.Idx) :
    val_main_v5 (F := Ideal) w j = w (ix3 0 (j 0) (j 1)) := by
  rw [val_main_v5_apply, val_main_v4_apply]
  refine congrArg w (funext fun a => Fin.ext ?_)
  have h0 := idx2_lt0 j
  have h1 := idx2_lt1 j
  match a with
  | ⟨0, _⟩ => rfl
  | ⟨1, _⟩ => show ((j 0).val * 256 + (j 1).val) / 256 % 256 = (j 0).val; omega
  | ⟨2, _⟩ => show ((j 0).val * 256 + (j 1).val) % 256 = (j 1).val; omega

theorem w_v14 (w : (⟨Cert.ReferenceIdeal.S2x256x256, .f32⟩ : BufTy).Contents (Elt Ideal)) (j : Cert.ReferenceIdeal.S256x256.Idx) :
    val_main_v14 (F := Ideal) w j = w (ix3 0 (j 0) (j 1)) := by
  rw [val_main_v14_apply, val_main_v13_apply]
  refine congrArg w (funext fun a => Fin.ext ?_)
  have h0 := idx2_lt0 j
  have h1 := idx2_lt1 j
  match a with
  | ⟨0, _⟩ => rfl
  | ⟨1, _⟩ => show ((j 0).val * 256 + (j 1).val) / 256 % 256 = (j 0).val; omega
  | ⟨2, _⟩ => show ((j 0).val * 256 + (j 1).val) % 256 = (j 1).val; omega

theorem w_v26 (w : (⟨Cert.ReferenceIdeal.S2x256x256, .f32⟩ : BufTy).Contents (Elt Ideal)) (j : Cert.ReferenceIdeal.S256x256.Idx) :
    val_main_v26 (F := Ideal) w j = w (ix3 1 (j 0) (j 1)) := by
  rw [val_main_v26_apply, val_main_v25_apply]
  refine congrArg w (funext fun a => Fin.ext ?_)
  have h0 := idx2_lt0 j
  have h1 := idx2_lt1 j
  match a with
  | ⟨0, _⟩ => rfl
  | ⟨1, _⟩ => show ((j 0).val * 256 + (j 1).val) / 256 % 256 = (j 0).val; omega
  | ⟨2, _⟩ => show ((j 0).val * 256 + (j 1).val) % 256 = (j 1).val; omega

theorem w_v35 (w : (⟨Cert.ReferenceIdeal.S2x256x256, .f32⟩ : BufTy).Contents (Elt Ideal)) (j : Cert.ReferenceIdeal.S256x256.Idx) :
    val_main_v35 (F := Ideal) w j = w (ix3 1 (j 0) (j 1)) := by
  rw [val_main_v35_apply, val_main_v34_apply]
  refine congrArg w (funext fun a => Fin.ext ?_)
  have h0 := idx2_lt0 j
  have h1 := idx2_lt1 j
  match a with
  | ⟨0, _⟩ => rfl
  | ⟨1, _⟩ => show ((j 0).val * 256 + (j 1).val) / 256 % 256 = (j 0).val; omega
  | ⟨2, _⟩ => show ((j 0).val * 256 + (j 1).val) % 256 = (j 1).val; omega

theorem b_v10 (bi : (⟨Cert.ReferenceIdeal.S2x256, .f32⟩ : BufTy).Contents (Elt Ideal)) (i : Cert.ReferenceIdeal.S8x2048x256.Idx) :
    val_main_v10 (F := Ideal) bi i = bi (ix2 0 (i 2)) := by
  rw [val_main_v10_apply, val_main_v9_apply, val_main_v8_apply, val_main_v7_apply]
  refine congrArg bi (funext fun a => Fin.ext ?_)
  have h2 : (i 2).val < 256 := (i 2).isLt
  match a with
  | ⟨0, _⟩ => rfl
  | ⟨1, _⟩ => show (i 2).val % 256 = (i 2).val; omega

theorem b_v19 (bi : (⟨Cert.ReferenceIdeal.S2x256, .f32⟩ : BufTy).Contents (Elt Ideal)) (i : Cert.ReferenceIdeal.S8x2048x256.Idx) :
    val_main_v19 (F := Ideal) bi i = bi (ix2 0 (i 2)) := by
  rw [val_main_v19_apply, val_main_v18_apply, val_main_v17_apply, val_main_v16_apply]
  refine congrArg bi (funext fun a => Fin.ext ?_)
  have h2 : (i 2).val < 256 := (i 2).isLt
  match a with
  | ⟨0, _⟩ => rfl
  | ⟨1, _⟩ => show (i 2).val % 256 = (i 2).val; omega

theorem b_v31 (bi : (⟨Cert.ReferenceIdeal.S2x256, .f32⟩ : BufTy).Contents (Elt Ideal)) (i : Cert.ReferenceIdeal.S8x2048x256.Idx) :
    val_main_v31 (F := Ideal) bi i = bi (ix2 1 (i 2)) := by
  rw [val_main_v31_apply, val_main_v30_apply, val_main_v29_apply, val_main_v28_apply]
  refine congrArg bi (funext fun a => Fin.ext ?_)
  have h2 : (i 2).val < 256 := (i 2).isLt
  match a with
  | ⟨0, _⟩ => rfl
  | ⟨1, _⟩ => show (i 2).val % 256 = (i 2).val; omega

theorem b_v40 (bi : (⟨Cert.ReferenceIdeal.S2x256, .f32⟩ : BufTy).Contents (Elt Ideal)) (i : Cert.ReferenceIdeal.S8x2048x256.Idx) :
    val_main_v40 (F := Ideal) bi i = bi (ix2 1 (i 2)) := by
  rw [val_main_v40_apply, val_main_v39_apply, val_main_v38_apply, val_main_v37_apply]
  refine congrArg bi (funext fun a => Fin.ext ?_)
  have h2 : (i 2).val < 256 := (i 2).isLt
  match a with
  | ⟨0, _⟩ => rfl
  | ⟨1, _⟩ => show (i 2).val % 256 = (i 2).val; omega

/-! From here on: the six arguments (features, adjacency, the stacked self weights and bias, the stacked neighbour weights and bias). -/
variable (x0 : (⟨Cert.ReferenceIdeal.S8x2048x256, .f32⟩ : BufTy).Contents (Elt Ideal)) (x1 : (⟨Cert.ReferenceIdeal.S8x2048x2048, .f32⟩ : BufTy).Contents (Elt Ideal))
  (x2 : (⟨Cert.ReferenceIdeal.S2x256x256, .f32⟩ : BufTy).Contents (Elt Ideal)) (x3 : (⟨Cert.ReferenceIdeal.S2x256, .f32⟩ : BufTy).Contents (Elt Ideal))
  (x4 : (⟨Cert.ReferenceIdeal.S2x256x256, .f32⟩ : BufTy).Contents (Elt Ideal)) (x5 : (⟨Cert.ReferenceIdeal.S2x256, .f32⟩ : BufTy).Contents (Elt Ideal))

theorem denom_v3 (j : Cert.ReferenceIdeal.S8x2048x1.Idx) :
    val_main_v3 (F := Ideal) x1 j = Cert.Spec.denom x1 (j 0) (j 1) := by
  rw [val_main_v3_apply, val_main_v1_apply, val_main_v0_apply, val_main_v2_apply, val_main_cst_0_apply, val_main_cst_apply]
  simp only [Ideal.addf_def, Ideal.ofBits_def]
  unfold Cert.Spec.denom
  refine congrArg₂ (· + ·) (congrArg₂ (· + ·) rfl (Finset.sum_congr rfl fun k _ => congrArg x1 ?_)) rfl
  exact (funext fun a => Fin.ext (by match a with | ⟨0, _⟩ => rfl | ⟨1, _⟩ => rfl | ⟨2, _⟩ => rfl))

theorem denom_v22 (i : Cert.ReferenceIdeal.S8x2048x256.Idx) :
    val_main_v22 (F := Ideal) x1 i = Cert.Spec.denom x1 (i 0) (i 1) := by
  rw [val_main_v22_apply, denom_v3]
  rfl

theorem denom_v43 (i : Cert.ReferenceIdeal.S8x2048x256.Idx) :
    val_main_v43 (F := Ideal) x1 i = Cert.Spec.denom x1 (i 0) (i 1) := by
  rw [val_main_v43_apply, denom_v3]
  rfl

theorem dense_v11 (i : Cert.ReferenceIdeal.S8x2048x256.Idx) :
    val_main_v11 (F := Ideal) x0 x4 x5 i = Cert.Spec.dense x0 x4 x5 0 (i 0) (i 1) (i 2) := by
  rw [val_main_v11_apply, val_main_v6_apply, b_v10, Ideal.addf_def]
  simp only [w_v5]
  unfold Cert.Spec.dense
  refine congrArg₂ (· + ·) (Finset.sum_congr rfl fun k _ => congrArg₂ (· * ·) (congrArg x0 ?_) rfl) rfl
  exact (funext fun a => Fin.ext (by match a with | ⟨0, _⟩ => rfl | ⟨1, _⟩ => rfl | ⟨2, _⟩ => rfl))

theorem dense_v20 (i : Cert.ReferenceIdeal.S8x2048x256.Idx) :
    val_main_v20 (F := Ideal) x0 x2 x3 i = Cert.Spec.dense x0 x2 x3 0 (i 0) (i 1) (i 2) := by
  rw [val_main_v20_apply, val_main_v15_apply, b_v19, Ideal.addf_def]
  simp only [w_v14]
  unfold Cert.Spec.dense
  refine congrArg₂ (· + ·) (Finset.sum_congr rfl fun k _ => congrArg₂ (· * ·) (congrArg x0 ?_) rfl) rfl
  exact (funext fun a => Fin.ext (by match a with | ⟨0, _⟩ => rfl | ⟨1, _⟩ => rfl | ⟨2, _⟩ => rfl))

theorem layer1 :
    val_main_v24 (F := Ideal) x0 x1 x2 x3 x4 x5 = Cert.Spec.layer x0 x1 x2 x3 x4 x5 0 := by
  funext i
  rw [val_main_v24_apply, val_main_v23_apply, val_main_v21_apply, val_main_v12_apply, val_main_call0_v0_apply,
    val_main_call0_cst_apply, denom_v22, dense_v20]
  simp only [dense_v11]
  simp only [Ideal.maximumf_def, Ideal.hostDivf_def, Ideal.addf_def, Ideal.ofBits_def]
  unfold Cert.Spec.layer
  refine congrArg₂ max (congrArg₂ Ideal.div (congrArg₂ (· + ·) (Finset.sum_congr rfl fun k _ => ?_) rfl) rfl) rfl
  refine congrArg₂ (· * ·) (congrArg x1 ?_) rfl
  exact (funext fun a => Fin.ext (by match a with | ⟨0, _⟩ => rfl | ⟨1, _⟩ => rfl | ⟨2, _⟩ => rfl))

theorem dense_v32 (i : Cert.ReferenceIdeal.S8x2048x256.Idx) :
    val_main_v32 (F := Ideal) x0 x1 x2 x3 x4 x5 i
      = Cert.Spec.dense (val_main_v24 (F := Ideal) x0 x1 x2 x3 x4 x5) x4 x5 1 (i 0) (i 1) (i 2) := by
  rw [val_main_v32_apply, val_main_v27_apply, b_v31, Ideal.addf_def]
  simp only [w_v26]
  unfold Cert.Spec.dense
  refine congrArg₂ (· + ·) (Finset.sum_congr rfl fun k _ => congrArg₂ (· * ·) (congrArg _ ?_) rfl) rfl
  exact (funext fun a => Fin.ext (by match a with | ⟨0, _⟩ => rfl | ⟨1, _⟩ => rfl | ⟨2, _⟩ => rfl))

theorem dense_v41 (i : Cert.ReferenceIdeal.S8x2048x256.Idx) :
    val_main_v41 (F := Ideal) x0 x1 x2 x3 x4 x5 i
      = Cert.Spec.dense (val_main_v24 (F := Ideal) x0 x1 x2 x3 x4 x5) x2 x3 1 (i 0) (i 1) (i 2) := by
  rw [val_main_v41_apply, val_main_v36_apply, b_v40, Ideal.addf_def]
  simp only [w_v35]
  unfold Cert.Spec.dense
  refine congrArg₂ (· + ·) (Finset.sum_congr rfl fun k _ => congrArg₂ (· * ·) (congrArg _ ?_) rfl) rfl
  exact (funext fun a => Fin.ext (by match a with | ⟨0, _⟩ => rfl | ⟨1, _⟩ => rfl | ⟨2, _⟩ => rfl))

theorem layer2 :
    val_main_v45 (F := Ideal) x0 x1 x2 x3 x4 x5
      = Cert.Spec.layer (val_main_v24 (F := Ideal) x0 x1 x2 x3 x4 x5) x1 x2 x3 x4 x5 1 := by
  funext i
  rw [val_main_v45_apply, val_main_v44_apply, val_main_v42_apply, val_main_v33_apply, val_main_call1_v0_apply,
    val_main_call1_cst_apply, denom_v43, dense_v41]
  simp only [dense_v32]
  simp only [Ideal.maximumf_def, Ideal.hostDivf_def, Ideal.addf_def, Ideal.ofBits_def]
  unfold Cert.Spec.layer
  refine congrArg₂ max (congrArg₂ Ideal.div (congrArg₂ (· + ·) (Finset.sum_congr rfl fun k _ => ?_) rfl) rfl) rfl
  refine congrArg₂ (· * ·) (congrArg x1 ?_) rfl
  exact (funext fun a => Fin.ext (by match a with | ⟨0, _⟩ => rfl | ⟨1, _⟩ => rfl | ⟨2, _⟩ => rfl))

theorem ref_eq_net :
    Cert.ReferenceIdeal.Read.val_main_v46 (F := Ideal) x0 x1 x2 x3 x4 x5 = Cert.Spec.net x0 x1 x2 x3 x4 x5 := by
  funext i
  rw [val_main_v46_apply, layer2, layer1, Ideal.addf_def]
  rfl

end Cert.RefSide

end
-- ==== Proof.lean ====
import proofs.«139723_j51213190037828_1_alg».proof.Defs
import proofs.«139723_j51213190037828_1_alg».proof.Proof.Gen.Kernel
import proofs.«139723_j51213190037828_1_alg».proof.Proof.Gen.KernelIdeal
import proofs.«139723_j51213190037828_1_alg».proof.Proof.Gen.ReferenceIdeal
import proofs.«139723_j51213190037828_1_alg».proof.Proof.Gen.Pre_finite_inputs
import proofs.«139723_j51213190037828_1_alg».proof.Proof.Gen.ReferenceIdeal.Run
import proofs.«139723_j51213190037828_1_alg».proof.Proof.Gen.ReferenceIdeal.Read
import proofs.«139723_j51213190037828_1_alg».proof.Proof.KI.RunAll
import proofs.«139723_j51213190037828_1_alg».proof.Proof.KI.Bridge
import proofs.«139723_j51213190037828_1_alg».proof.Proof.RefSide
import Idealize.ShloMosaic.Adequacy
import Idealize.ShloMosaic.Init

noncomputable section

namespace Cert.Proof

open Idealize.ShloMosaic Idealize.ShloMosaic.TcCoe Idealize.SL.Sem

/-- The idealization rewrote nothing, so the two kernel programs are one term: their body tables agree label by label. -/
theorem defs₀_eq : Cert.Kernel.defs₀ (F := Bits) = Cert.KernelIdeal.defs₀ (F := Bits) := by
  unfold Cert.Kernel.defs₀ Cert.KernelIdeal.defs₀
  refine congrArg _ (funext fun l => funext fun a => ?_)
  exact match l, a with
    | 0, (t, s) => rfl
    | 1, (t, s) => rfl
    | ⟨_ + 2, h⟩, _ => absurd h (Nat.not_lt.2 (Nat.le_add_left _ _))

theorem defs_eq : Cert.KernelIdeal.defs (F := Bits) = Cert.Kernel.defs (F := Bits) :=
  congrArg (Pipeline.defs Cert.KernelIdeal.pcfgs) defs₀_eq.symm

/-- The run is proved at every float instance, the word-level program's among them. -/
theorem frame_k : @Cert.frame_Kernel Cert.Kernel.Gen.facts Cert.Pre_finite_inputs.Gen.facts :=
  fun m ρ _ => defs_eq ▸ Cert.KernelIdeal.Run.run_frame (F := Bits) m ρ

theorem frame_ki : @Cert.frame_KernelIdeal Cert.KernelIdeal.Gen.facts Cert.Pre_finite_inputs.Gen.facts :=
  fun m ρ _ => Cert.KernelIdeal.Run.run_frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩) (Cert.KernelIdeal.Run.run_value (F := Ideal) m ρ)
    refine Cert.KernelIdeal.Bridge.result m c (Cert.KernelIdeal.Run.outs m) (Cert.KernelIdeal.Run.outs_v12 m c) ?_
    have hV : (fun (c : Dev Cert.KernelIdeal.nD) (b : Ref Cert.KernelIdeal.sig .tc) => Cert.KernelIdeal.Gen.V3 m (Cert.KernelIdeal.Run.outs m) c b) = Cert.KernelIdeal.Run.VR3 m :=
      funext fun c => funext fun b => congrFun (Cert.KernelIdeal.Run.V3_outs m c) _
    rw [hV]
    exact Cert.KernelIdeal.Run.outs_v21 m c
  · refine (θ_run Cert.ReferenceIdeal.defs _ _).mono (fun r h c => ⟨(h c).1.trans ?_, (h c).2⟩) (Cert.ReferenceIdeal.Value.run (F := Ideal) m' ρ')
    rw [Cert.ReferenceIdeal.Read.val_main_v46_eq, Cert.RefSide.ref_eq_net, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
